-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S1002x2048 : Shape := ⟨2, ![1002, 2048]⟩
abbrev S512x2048 : Shape := ⟨2, ![512, 2048]⟩
abbrev S9000x512 : Shape := ⟨2, ![9000, 512]⟩
abbrev S128x2048 : Shape := ⟨2, ![128, 2048]⟩
abbrev S40257x128 : Shape := ⟨2, ![40257, 128]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1002x2048 : S_.BroadcastsInDim S1002x2048 (![] : Fin 0 → Fin S1002x2048.rank)
  reducesTo_S1002x2048_S_d0_1 : S1002x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S9000x512 : S_.BroadcastsInDim S9000x512 (![] : Fin 0 → Fin S9000x512.rank)
  reducesTo_S9000x512_S_d0_1 : S9000x512.ReducesTo [0, 1] S_
  bcast_S_S128x2048 : S_.BroadcastsInDim S128x2048 (![] : Fin 0 → Fin S128x2048.rank)
  reducesTo_S128x2048_S_d0_1 : S128x2048.ReducesTo [0, 1] S_
  bcast_S_S40257x128 : S_.BroadcastsInDim S40257x128 (![] : Fin 0 → Fin S40257x128.rank)
  reducesTo_S40257x128_S_d0_1 : S40257x128.ReducesTo [0, 1] S_

variable [Facts]

def fn_part1 {F : FTy → Type} [FloatOps F] (main_arg5 : FVec F S128x2048 .f32) (main_arg6 : FVec F S40257x128 .f32) (main_v13 : IVec S_ 1) (main_v16 : IVec S9000x512 1) : IVec S_ 1 :=
  let main_c_5 : IVec S_ 1 := constantI S_ 1 1#1
  let main_v17 : IVec S_ 1 := (fun x v => Host.reduce IntOp.andi x v reducesTo_S9000x512_S_d0_1 h_S_) main_v16 main_c_5
  let main_v18 : IVec S_ 1 := andi main_v13 main_v17
  let main_v19 : FVec F S128x2048 .f32 := Host.absf main_arg5
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  let main_v24 : FVec F S40257x128 .f32 := Host.absf main_arg6
  let main_cst_8 : FVec F S_ .f32 := constant S_ .f32 0x7F800000#32
  let main_v25 : FVec F S40257x128 .f32 := broadcastInDim S40257x128 ![] bcast_S_S40257x128 main_cst_8
  let main_v26 : IVec S40257x128 1 := cmpf .olt main_v24 main_v25
  let main_c_9 : IVec S_ 1 := constantI S_ 1 1#1
  let main_v27 : IVec S_ 1 := (fun x v => Host.reduce IntOp.andi x v reducesTo_S40257x128_S_d0_1 h_S_) main_v26 main_c_9
  let main_v28 : IVec S_ 1 := andi main_v23 main_v27
  main_v28

def fn {F : FTy → Type} [FloatOps F] (main_arg0 : FVec F S4096x2048 .f32) (main_arg1 : IVec S4096 32) (main_arg2 : FVec F S1002x2048 .f32) (main_arg3 : FVec F S512x2048 .f32) (main_arg4 : FVec F S9000x512 .f32) (main_arg5 : FVec F S128x2048 .f32) (main_arg6 : FVec F S40257x128 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1002x2048 .f32 := Host.absf main_arg2
  let main_cst_0 : FVec F S_ .f32 := constant S_ .f32 0x7F800000#32
  let main_v5 : FVec F S1002x2048 .f32 := broadcastInDim S1002x2048 ![] bcast_S_S1002x2048 main_cst_0
  let main_v6 : IVec S1002x2048 1 := cmpf .olt main_v4 main_v5
  let main_c_1 : IVec S_ 1 := constantI S_ 1 1#1
  let main_v7 : IVec S_ 1 := (fun x v => Host.reduce IntOp.andi x v reducesTo_S1002x2048_S_d0_1 h_S_) main_v6 main_c_1
  let main_v8 : IVec S_ 1 := andi main_v3 main_v7
  let main_v9 : FVec F S512x2048 .f32 := Host.absf main_arg3
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S9000x512 .f32 := Host.absf main_arg4
  let main_cst_4 : FVec F S_ .f32 := constant S_ .f32 0x7F800000#32
  let main_v15 : FVec F S9000x512 .f32 := broadcastInDim S9000x512 ![] bcast_S_S9000x512 main_cst_4
  let main_v16 : IVec S9000x512 1 := cmpf .olt main_v14 main_v15
  fn_part1 (F := F) main_arg5 main_arg6 main_v13 main_v16
-- ==== Kernel.lean ====
abbrev S4096x2048 : Shape := ⟨2, ![4096, 2048]⟩
abbrev S4096 : Shape := ⟨1, ![4096]⟩
abbrev S1002x2048 : Shape := ⟨2, ![1002, 2048]⟩
abbrev S512x2048 : Shape := ⟨2, ![512, 2048]⟩
abbrev S9000x512 : Shape := ⟨2, ![9000, 512]⟩
abbrev S128x2048 : Shape := ⟨2, ![128, 2048]⟩
abbrev S40257x128 : Shape := ⟨2, ![40257, 128]⟩
abbrev S4096x1 : Shape := ⟨2, ![4096, 1]⟩
abbrev S4096x3 : Shape := ⟨2, ![4096, 3]⟩
abbrev S512x1 : Shape := ⟨2, ![512, 1]⟩
abbrev S512x3 : Shape := ⟨2, ![512, 3]⟩
abbrev S512x1002 : Shape := ⟨2, ![512, 1002]⟩
abbrev S512 : Shape := ⟨1, ![512]⟩
abbrev S1000x512 : Shape := ⟨2, ![1000, 512]⟩
abbrev S512x512 : Shape := ⟨2, ![512, 512]⟩
abbrev S512x1000 : Shape := ⟨2, ![512, 1000]⟩
abbrev S4096x128 : Shape := ⟨2, ![4096, 128]⟩
abbrev S512x128 : Shape := ⟨2, ![512, 128]⟩
abbrev S512x4096 : Shape := ⟨2, ![512, 4096]⟩
abbrev S_ : Shape := ⟨0, ![]⟩

abbrev nBuf : Space → Nat
  | .hbm => 30
  | .vmem => 37
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S1002x2048, .f32⟩
  | .hbm, ⟨3, _⟩ => ⟨S512x2048, .f32⟩
  | .hbm, ⟨4, _⟩ => ⟨S9000x512, .f32⟩
  | .hbm, ⟨5, _⟩ => ⟨S128x2048, .f32⟩
  | .hbm, ⟨6, _⟩ => ⟨S40257x128, .f32⟩
  | .hbm, ⟨7, _⟩ => ⟨S4096x1, .i32⟩
  | .hbm, ⟨8, _⟩ => ⟨S4096x3, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S1002x2048, .f32⟩
  | .local _ .vmem, ⟨3, _⟩ => ⟨S512x1, .i32⟩
  | .local _ .vmem, ⟨4, _⟩ => ⟨S512x1, .i32⟩
  | .local _ .vmem, ⟨5, _⟩ => ⟨S512x3, .f32⟩
  | .local _ .vmem, ⟨6, _⟩ => ⟨S512x3, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1000x512, .f32⟩
  | .local _ .vmem, ⟨11, _⟩ => ⟨S1000x512, .f32⟩
  | .local _ .vmem, ⟨12, _⟩ => ⟨S512x1, .i32⟩
  | .local _ .vmem, ⟨13, _⟩ => ⟨S512x1, .i32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x512, .bf16⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x2048, .f32⟩
  | .local _ .vmem, ⟨23, _⟩ => ⟨S512x2048, .f32⟩
  | .local _ .vmem, ⟨24, _⟩ => ⟨S128x2048, .f32⟩
  | .local _ .vmem, ⟨25, _⟩ => ⟨S4096x128, .f32⟩
  | .local _ .vmem, ⟨26, _⟩ => ⟨S4096x128, .f32⟩
  | .local _ .vmem, ⟨27, _⟩ => ⟨S512x1, .i32⟩
  | .local _ .vmem, ⟨28, _⟩ => ⟨S512x1, .i32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x128, .bf16⟩
  | .local _ .vmem, ⟨34, _⟩ => ⟨S512x1, .f32⟩
  | .local _ .vmem, ⟨35, _⟩ => ⟨S512x1, .f32⟩
  | .local _ .vmem, ⟨36, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_scratch0 : Ref sig .tc := ⟨.vmem, 33, rfl⟩
abbrev cc2_scratch1 : Ref sig .tc := ⟨.vmem, 34, rfl⟩
abbrev cc2_scratch2 : Ref sig .tc := ⟨.vmem, 35, rfl⟩
abbrev cc2_scratch3 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1002x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 9], ![false, false]⟩

def k1_cond2 (i : grid1.Coords) : BitVec 1 :=
  let arg1 : BitVec 32 := BitVec.ofNat 32 (i 1).val
  let c8_i32 : BitVec 32 := 8#32
  let v54 : BitVec 1 := Scalar.cmpi .eq arg1 c8_i32
  let v55 : BitVec 32 := Scalar.extui v54
  let c0_i32_25 : BitVec 32 := 0#32
  let v56 : BitVec 1 := Scalar.cmpi .ne v55 c0_i32_25
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 10], ![false, false]⟩

def k2_cond2 (i : grid2.Coords) : BitVec 1 :=
  let arg1 : BitVec 32 := BitVec.ofNat 32 (i 1).val
  let c9_i32 : BitVec 32 := 9#32
  let v54 : BitVec 1 := Scalar.cmpi .eq arg1 c9_i32
  let v55 : BitVec 32 := Scalar.extui v54
  let c0_i32_24 : BitVec 32 := 0#32
  let v56 : BitVec 1 := Scalar.cmpi .ne v55 c0_i32_24
  v56

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S128x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S4096_S4096x1 : S4096.ShapeCasts S4096x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1002x2048_S1002x2048_0_0 : ∀ a, (![0, 0] : Fin 2 → Nat) a + S1002x2048.size a ≤ S1002x2048.size a
  h_S1002x2048 : 0 < S1002x2048.numel
  reduces_S512x1002_S512 : S512x1002.Reduces [1] S512
  shapeCasts_S512_S512x1 : S512.ShapeCasts S512x1
  broadcasts_S512x1_S512x1002 : S512x1.Broadcasts S512x1002
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1002_d1_w32 : S512x1002.Iotas .tc 32 [1]
  slices_S512x1002_o0_1000_S512x1 : S512x1002.Slices ![0, 1000] S512x1
  slices_S512x1002_o0_1001_S512x1 : S512x1002.Slices ![0, 1001] S512x1
  concatenates_S512x1_S512x1_S512x1_S512x3_d1 : Shape.Concatenates [S512x1, S512x1, S512x1] S512x3 1
  inb_S512x3_S512x3_0_0 : ∀ a, (![0, 0] : Fin 2 → Nat) a + S512x3.size a ≤ S512x3.size a
  h_S512x3 : 0 < S512x3.numel
  slices_S4096x3_S4096x1_0_0 : S4096x3.Slices ![0, 0] S4096x1
  slices_S4096x3_S4096x1_0_1 : S4096x3.Slices ![0, 1] S4096x1
  slices_S4096x3_S4096x1_0_2 : S4096x3.Slices ![0, 2] S4096x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1000x512_S1000x512_0_0 : ∀ a, (![0, 0] : Fin 2 → Nat) a + S1000x512.size a ≤ S1000x512.size a
  h_S1000x512 : 0 < S1000x512.numel
  iota_S512x1000_d1_w32 : S512x1000.Iotas .tc 32 [1]
  reduces_S512x1000_S512 : S512x1000.Reduces [1] S512
  broadcasts_S512x1_S512x1000 : S512x1.Broadcasts S512x1000
  inb_S128x2048_S128x2048_0_0 : ∀ a, (![0, 0] : Fin 2 → Nat) a + S128x2048.size a ≤ S128x2048.size a
  h_S128x2048 : 0 < S128x2048.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  packedbf16_S512x128_S512x128_0_0 : (Rect.unit (s := S512x128) ![0, 0] S512x128.size inb_S512x128_S512x128_0_0).PackedRows (EltTy.packing .bf16)
  inb_S4096x128_S4096x128_0_0 : ∀ a, (![0, 0] : Fin 2 → Nat) a + S4096x128.size a ≤ S4096x128.size a
  h_S4096x128 : 0 < S4096x128.numel
  iota_S512x4096_d1_w32 : S512x4096.Iotas .tc 32 [1]
  reduces_S512x4096_S512 : S512x4096.Reduces [1] S512
  broadcasts_S512x1_S512x4096 : S512x1.Broadcasts S512x4096
  bcast_S_S4096 : S_.BroadcastsInDim S4096 (![] : Fin 0 → Fin S4096.rank)
  shapeCasts_S4096x1_S4096 : S4096x1.ShapeCasts S4096
  reducesTo_S4096_S_d0 : S4096.ReducesTo [0] S_
  h_S_ : 0 < S_.numel
  dot_S512x2048_S1002x2048_S512x1002_1_1_0_0_n_n_wf : DotDims.WF S512x2048 S1002x2048 S512x1002 [1] [1] [0] [0] [] []
  dot_S512x2048_S512x2048_S512x512_1_1_0_0_n_n_wf : DotDims.WF S512x2048 S512x2048 S512x512 [1] [1] [0] [0] [] []
  dot_S512x512_S1000x512_S512x1000_1_1_0_0_n_n_wf : DotDims.WF S512x512 S1000x512 S512x1000 [1] [1] [0] [0] [] []
  dot_S512x2048_S128x2048_S512x128_1_1_0_0_n_n_wf : DotDims.WF S512x2048 S128x2048 S512x128 [1] [1] [0] [0] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1002x2048.size a ≤ S1002x2048.size a
  hwx0_1 : ∀ i : grid0.Coords, EltTy.bits .f32 = 32 ∨ (Rect.block (s := S1002x2048) S1002x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S4096x3.size a
  hwx0_3 : ∀ i : grid0.Coords, EltTy.bits .f32 = 32 ∨ (Rect.block (s := S4096x3) S512x3.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .f32 = 32 ∨ (Rect.block (s := S512x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S9000x512.size a
  hwx1_2 : ∀ i : grid1.Coords, EltTy.bits .f32 = 32 ∨ (Rect.block (s := S9000x512) S1000x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .i32 = 32 ∨ (Rect.block (s := S4096x1) S512x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S128x2048.size a
  hwx2_1 : ∀ i : grid2.Coords, EltTy.bits .f32 = 32 ∨ (Rect.block (s := S128x2048) S128x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S4096x128.size a < S40257x128.size a
  hwx2_2 : ∀ i : grid2.Coords, EltTy.bits .f32 = 32 ∨ (Rect.unit (s := S40257x128) (fun a => cc2_transform_2 i a * S4096x128.size a) (fun a => (Pipeline.Clip.of (cc2_transform_2 i a) (S4096x128.size a) (S40257x128.size a)).extent (S4096x128.size a)) fun a => Pipeline.Clip.inb (Pipeline.Clip.ok_of (hstart2_2 i a))).WholeWords (EltTy.packing .f32)
  hwxs2_2 : ∀ i : grid2.Coords, EltTy.bits .f32 = 32 ∨ (Rect.unit (s := S4096x128) (fun _ => 0) (fun a => (Pipeline.Clip.of (cc2_transform_2 i a) (S4096x128.size a) (S40257x128.size a)).extent (S4096x128.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .i32 = 32 ∨ (Rect.block (s := S4096x1) S512x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S4096x1.size a
  hwx2_5 : ∀ i : grid2.Coords, EltTy.bits .f32 = 32 ∨ (Rect.block (s := S4096x1) S512x1.size (cc2_transform_5 i) (hinb2_5 i)).WholeWords (EltTy.packing .f32)

variable [Facts₀]

def dot_S512x2048_S1002x2048_S512x1002_1_1_0_0_n_n : DotDims S512x2048 S1002x2048 S512x1002 where
  lhsContracting := [1]
  rhsContracting := [1]
  lhsNonContracting := [0]
  rhsNonContracting := [0]
  lhsBatch := []
  rhsBatch := []
  wf := dot_S512x2048_S1002x2048_S512x1002_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S1000x512_S512x1000_1_1_0_0_n_n : DotDims S512x512 S1000x512 S512x1000 where
  lhsContracting := [1]
  rhsContracting := [1]
  lhsNonContracting := [0]
  rhsNonContracting := [0]
  lhsBatch := []
  rhsBatch := []
  wf := dot_S512x512_S1000x512_S512x1000_1_1_0_0_n_n_wf
def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1002x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_arg6) S4096x128.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v0) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S512x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6) S512x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S1002x2048 : Shape := ⟨2, ![1002, 2048]⟩
abbrev S512x2048 : Shape := ⟨2, ![512, 2048]⟩
abbrev S9000x512 : Shape := ⟨2, ![9000, 512]⟩
abbrev S128x2048 : Shape := ⟨2, ![128, 2048]⟩
abbrev S40257x128 : Shape := ⟨2, ![40257, 128]⟩
abbrev S2048x1002 : Shape := ⟨2, ![2048, 1002]⟩
abbrev S4096x1002 : Shape := ⟨2, ![4096, 1002]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S2048x512 : Shape := ⟨2, ![2048, 512]⟩
abbrev S4096x512 : Shape := ⟨2, ![4096, 512]⟩
abbrev S512x9000 : Shape := ⟨2, ![512, 9000]⟩
abbrev S4096x9000 : Shape := ⟨2, ![4096, 9000]⟩
abbrev S2048x128 : Shape := ⟨2, ![2048, 128]⟩
abbrev S4096x128 : Shape := ⟨2, ![4096, 128]⟩
abbrev S128x40257 : Shape := ⟨2, ![128, 40257]⟩
abbrev S4096x40257 : Shape := ⟨2, ![4096, 40257]⟩

abbrev nBuf : Space → Nat
  | .hbm => 183
  | .vmem => 0
  | .smem => 0
  | _ => 0

abbrev hbmTy0_0 (i : Nat) : BufTy := match i % 128 with
  | 0 => ⟨S4096x2048, .f32⟩
  | 1 => ⟨S4096, .i32⟩
  | 2 => ⟨S1002x2048, .f32⟩
  | 3 => ⟨S512x2048, .f32⟩
  | 4 => ⟨S9000x512, .f32⟩
  | 5 => ⟨S128x2048, .f32⟩
  | 6 => ⟨S40257x128, .f32⟩
  | 7 => ⟨S2048x1002, .f32⟩
  | 8 => ⟨S4096x1002, .f32⟩
  | 9 => ⟨S_, .f32⟩
  | 10 => ⟨S4096, .f32⟩
  | 11 => ⟨S_, .f32⟩
  | 12 => ⟨S4096, .f32⟩
  | 13 => ⟨S4096, .f32⟩
  | 14 => ⟨S4096x1, .f32⟩
  | 15 => ⟨S4096x1002, .f32⟩
  | 16 => ⟨S4096x1002, .f32⟩
  | 17 => ⟨S4096x1002, .f32⟩
  | 18 => ⟨S_, .f32⟩
  | 19 => ⟨S4096, .f32⟩
  | 20 => ⟨S4096x1, .f32⟩
  | 21 => ⟨S4096x1, .f32⟩
  | 22 => ⟨S4096x1002, .f32⟩
  | 23 => ⟨S4096x1002, .f32⟩
  | 24 => ⟨S_, .i32⟩
  | 25 => ⟨S_, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i32⟩
  | 32 => ⟨S4096x1, .i32⟩
  | 33 => ⟨S_, .i32⟩
  | 34 => ⟨S4096x1, .i32⟩
  | 35 => ⟨S4096x1, .i1⟩
  | 36 => ⟨S_, .i32⟩
  | 37 => ⟨S4096x1, .i32⟩
  | 38 => ⟨S4096x1, .i32⟩
  | 39 => ⟨S4096x1, .i32⟩
  | 40 => ⟨S4096x1x1, .i32⟩
  | 41 => ⟨S1, .i32⟩
  | 42 => ⟨S_, .i32⟩
  | 43 => ⟨S4096x1x1, .i32⟩
  | 44 => ⟨S4096x1x1, .i1⟩
  | 45 => ⟨S1x1x1, .i32⟩
  | 46 => ⟨S4096x1x1, .i32⟩
  | 47 => ⟨S4096x1x1, .i1⟩
  | 48 => ⟨S4096x1x1, .i1⟩
  | 49 => ⟨S_, .i1⟩
  | 50 => ⟨S4096x1, .i1⟩
  | 51 => ⟨S4096x1, .f32⟩
  | 52 => ⟨S_, .f32⟩
  | 53 => ⟨S4096x1, .f32⟩
  | 54 => ⟨S4096x1, .f32⟩
  | 55 => ⟨S4096, .f32⟩
  | 56 => ⟨S2048x512, .f32⟩
  | 57 => ⟨S4096x512, .f32⟩
  | 58 => ⟨S512x9000, .f32⟩
  | 59 => ⟨S4096x9000, .f32⟩
  | 60 => ⟨S_, .f32⟩
  | 61 => ⟨S4096, .f32⟩
  | 62 => ⟨S_, .f32⟩
  | 63 => ⟨S4096, .f32⟩
  | 64 => ⟨S4096, .f32⟩
  | 65 => ⟨S4096x1, .f32⟩
  | 66 => ⟨S4096x9000, .f32⟩
  | 67 => ⟨S4096x9000, .f32⟩
  | 68 => ⟨S4096x9000, .f32⟩
  | 69 => ⟨S_, .f32⟩
  | 70 => ⟨S4096, .f32⟩
  | 71 => ⟨S4096x1, .f32⟩
  | 72 => ⟨S4096x1, .f32⟩
  | 73 => ⟨S4096x9000, .f32⟩
  | 74 => ⟨S4096x9000, .f32⟩
  | 75 => ⟨S_, .i32⟩
  | 76 => ⟨S4096, .i32⟩
  | 77 => ⟨S4096, .i32⟩
  | 78 => ⟨S_, .i32⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S4096x1, .i32⟩
  | 87 => ⟨S_, .i32⟩
  | 88 => ⟨S4096x1, .i32⟩
  | 89 => ⟨S4096x1, .i1⟩
  | 90 => ⟨S_, .i32⟩
  | 91 => ⟨S4096x1, .i32⟩
  | 92 => ⟨S4096x1, .i32⟩
  | 93 => ⟨S4096x1, .i32⟩
  | 94 => ⟨S4096x1x1, .i32⟩
  | 95 => ⟨S1, .i32⟩
  | 96 => ⟨S_, .i32⟩
  | 97 => ⟨S4096x1x1, .i32⟩
  | 98 => ⟨S4096x1x1, .i1⟩
  | 99 => ⟨S1x1x1, .i32⟩
  | 100 => ⟨S4096x1x1, .i32⟩
  | 101 => ⟨S4096x1x1, .i1⟩
  | 102 => ⟨S4096x1x1, .i1⟩
  | 103 => ⟨S_, .i1⟩
  | 104 => ⟨S4096x1, .i1⟩
  | 105 => ⟨S4096x1, .f32⟩
  | 106 => ⟨S_, .f32⟩
  | 107 => ⟨S4096x1, .f32⟩
  | 108 => ⟨S4096x1, .f32⟩
  | 109 => ⟨S4096, .f32⟩
  | 110 => ⟨S4096x1, .f32⟩
  | 111 => ⟨S4096, .f32⟩
  | 112 => ⟨S4096, .f32⟩
  | 113 => ⟨S2048x128, .f32⟩
  | 114 => ⟨S4096x128, .f32⟩
  | 115 => ⟨S128x40257, .f32⟩
  | 116 => ⟨S4096x40257, .f32⟩
  | 117 => ⟨S_, .f32⟩
  | 118 => ⟨S4096, .f32⟩
  | 119 => ⟨S_, .f32⟩
  | 120 => ⟨S4096, .f32⟩
  | 121 => ⟨S4096, .f32⟩
  | 122 => ⟨S4096x1, .f32⟩
  | 123 => ⟨S4096x40257, .f32⟩
  | 124 => ⟨S4096x40257, .f32⟩
  | 125 => ⟨S4096x40257, .f32⟩
  | 126 => ⟨S_, .f32⟩
  | 127 => ⟨S4096, .f32⟩
  | _ => ⟨S4096x2048, .f32⟩

abbrev hbmTy0_1 (i : Nat) : BufTy := match i % 128 with
  | 0 => ⟨S4096x1, .f32⟩
  | 1 => ⟨S4096x1, .f32⟩
  | 2 => ⟨S4096x40257, .f32⟩
  | 3 => ⟨S4096x40257, .f32⟩
  | 4 => ⟨S_, .i32⟩
  | 5 => ⟨S4096, .i32⟩
  | 6 => ⟨S4096, .i32⟩
  | 7 => ⟨S_, .i32⟩
  | 8 => ⟨S_, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S4096x1, .i32⟩
  | 16 => ⟨S_, .i32⟩
  | 17 => ⟨S4096x1, .i32⟩
  | 18 => ⟨S4096x1, .i1⟩
  | 19 => ⟨S_, .i32⟩
  | 20 => ⟨S4096x1, .i32⟩
  | 21 => ⟨S4096x1, .i32⟩
  | 22 => ⟨S4096x1, .i32⟩
  | 23 => ⟨S4096x1x1, .i32⟩
  | 24 => ⟨S1, .i32⟩
  | 25 => ⟨S_, .i32⟩
  | 26 => ⟨S4096x1x1, .i32⟩
  | 27 => ⟨S4096x1x1, .i1⟩
  | 28 => ⟨S1x1x1, .i32⟩
  | 29 => ⟨S4096x1x1, .i32⟩
  | 30 => ⟨S4096x1x1, .i1⟩
  | 31 => ⟨S4096x1x1, .i1⟩
  | 32 => ⟨S_, .i1⟩
  | 33 => ⟨S4096x1, .i1⟩
  | 34 => ⟨S4096x1, .f32⟩
  | 35 => ⟨S_, .f32⟩
  | 36 => ⟨S4096x1, .f32⟩
  | 37 => ⟨S4096x1, .f32⟩
  | 38 => ⟨S4096, .f32⟩
  | 39 => ⟨S4096x1, .f32⟩
  | 40 => ⟨S4096, .f32⟩
  | 41 => ⟨S4096, .f32⟩
  | 42 => ⟨S_, .i32⟩
  | 43 => ⟨S4096, .i32⟩
  | 44 => ⟨S4096, .i1⟩
  | 45 => ⟨S_, .i32⟩
  | 46 => ⟨S4096, .i32⟩
  | 47 => ⟨S4096, .i1⟩
  | 48 => ⟨S4096, .f32⟩
  | 49 => ⟨S4096, .f32⟩
  | 50 => ⟨S_, .f32⟩
  | 51 => ⟨S_, .f32⟩
  | 52 => ⟨S_, .f32⟩
  | 53 => ⟨S_, .f32⟩
  | 54 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v2 : Ref sig .tc := ⟨.hbm, 23, rfl⟩
abbrev main_c : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v3 : Ref sig .tc := ⟨.hbm, 31, rfl⟩
abbrev main_v4 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_call3_cst : Ref sig .tc := ⟨.hbm, 60, rfl⟩
abbrev main_call3_v0 : Ref sig .tc := ⟨.hbm, 61, rfl⟩
abbrev main_call3_cst_0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_cst_1 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_v11 : Ref sig .tc := ⟨.hbm, 74, rfl⟩
abbrev main_c_1 : Ref sig .tc := ⟨.hbm, 75, rfl⟩
abbrev main_v12 : Ref sig .tc := ⟨.hbm, 76, rfl⟩
abbrev main_v13 : Ref sig .tc := ⟨.hbm, 77, rfl⟩
abbrev main_c_2 : Ref sig .tc := ⟨.hbm, 78, rfl⟩
abbrev main_c_3 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v14 : Ref sig .tc := ⟨.hbm, 85, rfl⟩
abbrev main_v15 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_c_1 : Ref sig .tc := ⟨.hbm, 95, rfl⟩
abbrev main_call5_c_2 : Ref sig .tc := ⟨.hbm, 96, rfl⟩
abbrev main_call5_v6 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_3 : Ref sig .tc := ⟨.hbm, 103, rfl⟩
abbrev main_call5_v12 : Ref sig .tc := ⟨.hbm, 104, rfl⟩
abbrev main_call5_v13 : Ref sig .tc := ⟨.hbm, 105, rfl⟩
abbrev main_call5_cst : Ref sig .tc := ⟨.hbm, 106, rfl⟩
abbrev main_call5_v14 : Ref sig .tc := ⟨.hbm, 107, rfl⟩
abbrev main_v16 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_call6_cst : Ref sig .tc := ⟨.hbm, 117, rfl⟩
abbrev main_call6_v0 : Ref sig .tc := ⟨.hbm, 118, rfl⟩
abbrev main_call6_cst_0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_v6 : Ref sig .tc := ⟨.hbm, 125, rfl⟩
abbrev main_call6_cst_1 : Ref sig .tc := ⟨.hbm, 126, rfl⟩
abbrev main_call6_v7 : Ref sig .tc := ⟨.hbm, 127, rfl⟩
abbrev main_call6_v8 : Ref sig .tc := ⟨.hbm, 128, rfl⟩
abbrev main_call6_v9 : Ref sig .tc := ⟨.hbm, 129, rfl⟩
abbrev main_call6_v10 : Ref sig .tc := ⟨.hbm, 130, rfl⟩
abbrev main_v25 : Ref sig .tc := ⟨.hbm, 131, rfl⟩
abbrev main_c_4 : Ref sig .tc := ⟨.hbm, 132, rfl⟩
abbrev main_v26 : Ref sig .tc := ⟨.hbm, 133, rfl⟩
abbrev main_v27 : Ref sig .tc := ⟨.hbm, 134, rfl⟩
abbrev main_c_5 : Ref sig .tc := ⟨.hbm, 135, rfl⟩
abbrev main_c_6 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_v28 : Ref sig .tc := ⟨.hbm, 142, rfl⟩
abbrev main_v29 : Ref sig .tc := ⟨.hbm, 143, rfl⟩
abbrev main_call8_c : Ref sig .tc := ⟨.hbm, 144, rfl⟩
abbrev main_call8_v0 : Ref sig .tc := ⟨.hbm, 145, rfl⟩
abbrev main_call8_v1 : Ref sig .tc := ⟨.hbm, 146, rfl⟩
abbrev main_call8_c_0 : Ref sig .tc := ⟨.hbm, 147, rfl⟩
abbrev main_call8_v2 : Ref sig .tc := ⟨.hbm, 148, rfl⟩
abbrev main_call8_v3 : Ref sig .tc := ⟨.hbm, 149, rfl⟩
abbrev main_call8_v4 : Ref sig .tc := ⟨.hbm, 150, rfl⟩
abbrev main_call8_v5 : Ref sig .tc := ⟨.hbm, 151, rfl⟩
abbrev main_call8_c_1 : Ref sig .tc := ⟨.hbm, 152, rfl⟩
abbrev main_call8_c_2 : Ref sig .tc := ⟨.hbm, 153, rfl⟩
abbrev main_call8_v6 : Ref sig .tc := ⟨.hbm, 154, rfl⟩
abbrev main_call8_v7 : Ref sig .tc := ⟨.hbm, 155, rfl⟩
abbrev main_call8_v8 : Ref sig .tc := ⟨.hbm, 156, rfl⟩
abbrev main_call8_v9 : Ref sig .tc := ⟨.hbm, 157, rfl⟩
abbrev main_call8_v10 : Ref sig .tc := ⟨.hbm, 158, rfl⟩
abbrev main_call8_v11 : Ref sig .tc := ⟨.hbm, 159, rfl⟩
abbrev main_call8_c_3 : Ref sig .tc := ⟨.hbm, 160, rfl⟩
abbrev main_call8_v12 : Ref sig .tc := ⟨.hbm, 161, rfl⟩
abbrev main_call8_v13 : Ref sig .tc := ⟨.hbm, 162, rfl⟩
abbrev main_call8_cst : Ref sig .tc := ⟨.hbm, 163, rfl⟩
abbrev main_call8_v14 : Ref sig .tc := ⟨.hbm, 164, rfl⟩
abbrev main_v30 : Ref sig .tc := ⟨.hbm, 165, rfl⟩
abbrev main_v31 : Ref sig .tc := ⟨.hbm, 166, rfl⟩
abbrev main_v32 : Ref sig .tc := ⟨.hbm, 167, rfl⟩
abbrev main_v33 : Ref sig .tc := ⟨.hbm, 168, rfl⟩
abbrev main_v34 : Ref sig .tc := ⟨.hbm, 169, rfl⟩
abbrev main_c_7 : Ref sig .tc := ⟨.hbm, 170, rfl⟩
abbrev main_v35 : Ref sig .tc := ⟨.hbm, 171, rfl⟩
abbrev main_v36 : Ref sig .tc := ⟨.hbm, 172, rfl⟩
abbrev main_c_8 : Ref sig .tc := ⟨.hbm, 173, rfl⟩
abbrev main_v37 : Ref sig .tc := ⟨.hbm, 174, rfl⟩
abbrev main_v38 : Ref sig .tc := ⟨.hbm, 175, rfl⟩
abbrev main_v39 : Ref sig .tc := ⟨.hbm, 176, rfl⟩
abbrev main_v40 : Ref sig .tc := ⟨.hbm, 177, rfl⟩
abbrev main_cst : Ref sig .tc := ⟨.hbm, 178, rfl⟩
abbrev main_v41 : Ref sig .tc := ⟨.hbm, 179, rfl⟩
abbrev main_cst_9 : Ref sig .tc := ⟨.hbm, 180, rfl⟩
abbrev main_v42 : Ref sig .tc := ⟨.hbm, 181, rfl⟩
abbrev main_v43 : Ref sig .tc := ⟨.hbm, 182, rfl⟩

abbrev nD : Nat := 1
abbrev τ : Topo := Topo.v7x

variable {F : FTy → Type} [FloatOps F]

class Facts₀ : Prop where
  transposes_S1002x2048_S2048x1002_1_0 : S1002x2048.Transposes [1, 0] S2048x1002
  reducesTo_S4096x1002_S4096_d1 : S4096x1002.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1002_0_1 : S4096x1.BroadcastsInDim S4096x1002 (![0, 1] : Fin 2 → Fin S4096x1002.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  transposes_S512x2048_S2048x512_1_0 : S512x2048.Transposes [1, 0] S2048x512
  transposes_S9000x512_S512x9000_1_0 : S9000x512.Transposes [1, 0] S512x9000
  reducesTo_S4096x9000_S4096_d1 : S4096x9000.ReducesTo [1] S4096
  bcast_S4096x1_S4096x9000_0_1 : S4096x1.BroadcastsInDim S4096x9000 (![0, 1] : Fin 2 → Fin S4096x9000.rank)
  slices_S4096x1002_S4096x1_0_1000 : S4096x1002.Slices ![0, 1000] S4096x1
  transposes_S128x2048_S2048x128_1_0 : S128x2048.Transposes [1, 0] S2048x128
  transposes_S40257x128_S128x40257_1_0 : S40257x128.Transposes [1, 0] S128x40257
  reducesTo_S4096x40257_S4096_d1 : S4096x40257.ReducesTo [1] S4096
  bcast_S4096x1_S4096x40257_0_1 : S4096x1.BroadcastsInDim S4096x40257 (![0, 1] : Fin 2 → Fin S4096x40257.rank)
  slices_S4096x1002_S4096x1_0_1001 : S4096x1002.Slices ![0, 1001] S4096x1
  reducesTo_S4096_S_d0 : S4096.ReducesTo [0] S_
  dot_S4096x2048_S2048x1002_S4096x1002_1_0_0_1_n_n_wf : DotDims.WF S4096x2048 S2048x1002 S4096x1002 [1] [0] [0] [1] [] []
  gather_S4096x1002_S4096x1x1_S4096x1_n_1_0_0_1_2_11_wf : GatherDims.WF S4096x1002 S4096x1x1 S4096x1 [] [1] [0] [1] [0] 2 ![1, 1]
  dot_S4096x2048_S2048x512_S4096x512_1_0_0_1_n_n_wf : DotDims.WF S4096x2048 S2048x512 S4096x512 [1] [0] [0] [1] [] []
  dot_S4096x512_S512x9000_S4096x9000_1_0_0_1_n_n_wf : DotDims.WF S4096x512 S512x9000 S4096x9000 [1] [0] [0] [1] [] []
  gather_S4096x9000_S4096x1x1_S4096x1_n_1_0_0_1_2_11_wf : GatherDims.WF S4096x9000 S4096x1x1 S4096x1 [] [1] [0] [1] [0] 2 ![1, 1]
  dot_S4096x2048_S2048x128_S4096x128_1_0_0_1_n_n_wf : DotDims.WF S4096x2048 S2048x128 S4096x128 [1] [0] [0] [1] [] []
  dot_S4096x128_S128x40257_S4096x40257_1_0_0_1_n_n_wf : DotDims.WF S4096x128 S128x40257 S4096x40257 [1] [0] [0] [1] [] []
  gather_S4096x40257_S4096x1x1_S4096x1_n_1_0_0_1_2_11_wf : GatherDims.WF S4096x40257 S4096x1x1 S4096x1 [] [1] [0] [1] [0] 2 ![1, 1]

variable [Facts₀]

def dot_S4096x2048_S2048x1002_S4096x1002_1_0_0_1_n_n : DotDims S4096x2048 S2048x1002 S4096x1002 where
  lhsContracting := [1]
  rhsContracting := [0]
  lhsNonContracting := [0]
  rhsNonContracting := [1]
  lhsBatch := []
  rhsBatch := []
  wf := dot_S4096x2048_S2048x1002_S4096x1002_1_0_0_1_n_n_wf
def gather_S4096x1002_S4096x1x1_S4096x1_n_1_0_0_1_2_11 : GatherDims S4096x1002 S4096x1x1 S4096x1 where
  offsetDims := []
  collapsedSliceDims := [1]
  operandBatchingDims := [0]
  startIndicesBatchingDims := [0]
  startIndexMap := [1]
  indexVectorDim := 2
  sliceSizes := ![1, 1]
  wf := gather_S4096x1002_S4096x1x1_S4096x1_n_1_0_0_1_2_11_wf
def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x512_S512x9000_S4096x9000_1_0_0_1_n_n : DotDims S4096x512 S512x9000 S4096x9000 where
  lhsContracting := [1]
  rhsContracting := [0]
  lhsNonContracting := [0]
  rhsNonContracting := [1]
  lhsBatch := []
  rhsBatch := []
  wf := dot_S4096x512_S512x9000_S4096x9000_1_0_0_1_n_n_wf
def gather_S4096x9000_S4096x1x1_S4096x1_n_1_0_0_1_2_11 : GatherDims S4096x9000 S4096x1x1 S4096x1 where
  offsetDims := []
  collapsedSliceDims := [1]
  operandBatchingDims := [0]
  startIndicesBatchingDims := [0]
  startIndexMap := [1]
  indexVectorDim := 2
  sliceSizes := ![1, 1]
  wf := gather_S4096x9000_S4096x1x1_S4096x1_n_1_0_0_1_2_11_wf
def dot_S4096x2048_S2048x128_S4096x128_1_0_0_1_n_n : DotDims S4096x2048 S2048x128 S4096x128 where
  lhsContracting := [1]
  rhsContracting := [0]
  lhsNonContracting := [0]
  rhsNonContracting := [1]
  lhsBatch := []
  rhsBatch := []
  wf := dot_S4096x2048_S2048x128_S4096x128_1_0_0_1_n_n_wf
def dot_S4096x128_S128x40257_S4096x40257_1_0_0_1_n_n : DotDims S4096x128 S128x40257 S4096x40257 where
  lhsContracting := [1]
  rhsContracting := [0]
  lhsNonContracting := [0]
  rhsNonContracting := [1]
  lhsBatch := []
  rhsBatch := []
  wf := dot_S4096x128_S128x40257_S4096x40257_1_0_0_1_n_n_wf
def gather_S4096x40257_S4096x1x1_S4096x1_n_1_0_0_1_2_11 : GatherDims S4096x40257 S4096x1x1 S4096x1 where
  offsetDims := []
  collapsedSliceDims := [1]
  operandBatchingDims := [0]
  startIndicesBatchingDims := [0]
  startIndexMap := [1]
  indexVectorDim := 2
  sliceSizes := ![1, 1]
  wf := gather_S4096x40257_S4096x1x1_S4096x1_n_1_0_0_1_2_11_wf

class Facts : Prop extends Facts₀ where

variable [Facts]
-- ==== Proof.K.Reg0.lean ====
import proofs.«416445_j13245679141252_2_alg».proof.Proof.Gen.Kernel.Launch
import proofs.«416445_j13245679141252_2_alg».proof.Proof.Gen.Kernel.Skeleton
import proofs.«416445_j13245679141252_2_alg».proof.Proof.Gen.Kernel.Points
import Idealize.ShloMosaic.Lib.Pipeline.FrameBody
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S512x2048 := Rect.unit (s := S512x2048) ![0, 0] S512x2048.size inb_S512x2048_S512x2048_0_0
abbrev rW : Rect S1002x2048 := Rect.unit (s := S1002x2048) ![0, 0] S1002x2048.size inb_S1002x2048_S1002x2048_0_0
abbrev rT : Rect S512x1 := Rect.unit (s := S512x1) ![0, 0] S512x1.size inb_S512x1_S512x1_0_0
abbrev rO : Rect S512x3 := Rect.unit (s := S512x3) ![0, 0] S512x3.size inb_S512x3_S512x3_0_0

def out0_3 (x0 : Vec F S512x2048 .f32) (x1 : Vec F S1002x2048 .f32) (x2 : Vec F S512x1 .i32) : Vec F S512x3 .f32 :=
  View.canon [⟨rO, k0_pay1 (View.ld x0 rX) (View.ld x1 rW) (View.ld x2 rT)⟩]

theorem sound_kernel0 (c : Dev nD) (E : Set ℕ) (i : grid0.Coords)
    (a0 : Memref sig .tc .vmem S512x2048 .f32) (h0 : a0.IsWhole) (a1 : Memref sig .tc .vmem S1002x2048 .f32) (h1 : a1.IsWhole)
    (a2 : Memref sig .tc .vmem S512x1 .i32) (h2 : a2.IsWhole) (a3 : Memref sig .tc .vmem S512x3 .f32) (h3 : a3.IsWhole)
    (x0 : Vec F S512x2048 .f32) (x1 : Vec F S1002x2048 .f32) (x2 : Vec F S512x1 .i32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__head_kernel i a0 h0 a1 h1 a2 h2 a3 h3) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S512x3.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = out0_3 (iblk0 V c 0 t) (iblk0 V c 1 t) (iblk0 V c 2 t) := by
  refine ⟨?_, ?_, ?_, ?_⟩ <;> dsimp only [dat0]

theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;>
    exact fun d => ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)) := by
  unfold bodyAt0
  rw [show (dat0 V c).Φ t.succ = (dat0 V c).Φ t.castSucc from rfl,
    show (dat0 V c).owesAt () t.succ = (dat0 V c).owesAt () t.castSucc from rfl,
    (after0 V c t).1, (after0 V c t).2.1, (after0 V c t).2.2.1, (after0 V c t).2.2.2]
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c Set.univ _ _ _ _ _ _ _ _ _ _ _ _ _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Reg

end
-- ==== Proof.K.Reg1.Base.lean ====
import proofs.«416445_j13245679141252_2_alg».proof.Proof.Gen.Kernel.Launch
import proofs.«416445_j13245679141252_2_alg».proof.Proof.Gen.Kernel.Skeleton
import proofs.«416445_j13245679141252_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S512x2048 .f32 := iblk1 V c 0 t

abbrev w1b1 (c : Dev nD) (t : Fin cfg1.N) : Vec F S512x2048 .f32 := iblk1 V c 1 t

abbrev w2b1 (c : Dev nD) (t : Fin cfg1.N) : Vec F S1000x512 .f32 := iblk1 V c 2 t

abbrev tgb1 (c : Dev nD) (t : Fin cfg1.N) : Vec F S512x1 .i32 := iblk1 V c 3 t

abbrev cb1 (c : Dev nD) (t : Fin cfg1.N) : Vec F S512x1 .f32 := iblk1 V c 4 t

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 9 = 0 :=
  (by decide +kernel : ∀ t : Fin grid1.N, cond1_0 (grid1.coords t) ↔ t.val % 9 = 0)

abbrev cond1_2 (i : grid1.Coords) : Prop := k1_cond2 i = 1#1

theorem hcond1_2 : ∀ t : Fin cfg1.N, cond1_2 (grid1.coords t) ↔ t.val % 9 = 8 :=
  (by decide +kernel : ∀ t : Fin grid1.N, cond1_2 (grid1.coords t) ↔ t.val % 9 = 8)

theorem idleAt1_5 : ∀ t : Fin cfg1.N, ¬cond1_2 (grid1.coords t) → cfg1.idle 5 (grid1.coords t) = true := by decide +kernel

theorem noFlush1_5 : ∀ t : Fin cfg1.N, ¬cond1_2 (grid1.coords t) → (cfg1.win 5).flush t = false := by decide +kernel

theorem liveAt1_5 : ∀ t : Fin cfg1.N, cond1_2 (grid1.coords t) → cfg1.idle 5 (grid1.coords t) = false := by decide +kernel

abbrev ms1_0 (t : Fin cfg1.N) : Memref sig .tc .vmem S512x2048 .f32 := win1_0.stage (cfg1.slots t 0)
abbrev ms1_1 (t : Fin cfg1.N) : Memref sig .tc .vmem S512x2048 .f32 := win1_1.stage (cfg1.slots t 1)
abbrev ms1_2 (t : Fin cfg1.N) : Memref sig .tc .vmem S1000x512 .f32 := win1_2.stage (cfg1.slots t 2)
abbrev ms1_3 (t : Fin cfg1.N) : Memref sig .tc .vmem S512x1 .i32 := win1_3.stage (cfg1.slots t 3)
abbrev ms1_4 (t : Fin cfg1.N) : Memref sig .tc .vmem S512x1 .f32 := win1_4.stage (cfg1.slots t 4)
abbrev ms1_5 (t : Fin cfg1.N) : Memref sig .tc .vmem S512x1 .f32 := win1_5.stage (cfg1.slots t 5)

abbrev scM1_0 : Memref sig .tc .vmem S512x512 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1 .f32 := Memref.whole cc1_scratch3

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := by
  unfold Pipeline.ΦA; rw [scopedRest1_split]; simp only [scM1_0, scM1_1, scM1_2, scM1_3, owns_whole]; try rfl

abbrev St1 (F : FTy → Type) : Type := Vec F S512x512 .bf16 × Vec F S512x1 .f32 × Vec F S512x1 .f32 × Vec F S512x1 .f32

def init1 (x : Vec F S512x2048 .f32) (w1 : Vec F S512x2048 .f32) : St1 F :=
  (k1_pay3 x w1, k1_pay4, k1_pay5, k1_pay6)

def step1 (i : grid1.Coords) (w2 : Vec F S1000x512 .f32) (tg : Vec F S512x1 .i32) (s : St1 F) : St1 F :=
  (s.1, k1_pay11 i s.1 w2 s.2.1, k1_pay12 i s.1 w2 s.2.1 s.2.2.1, k1_pay1 (k1_pay7 s.1 w2) (k1_pay8 i) tg s.2.2.2)

def fin1 (cb : Vec F S512x1 .f32) (s : St1 F) : Vec F S512x1 .f32 :=
  k1_pay2 s.2.1 s.2.2.1 cb s.2.2.2

def sAt1 (c : Dev nD) : (n : ℕ) → n < cfg1.N → St1 F
  | 0, hn => step1 (grid1.coords ⟨0, hn⟩) (w2b1 V c ⟨0, hn⟩) (tgb1 V c ⟨0, hn⟩) (init1 (xb1 V c ⟨0, hn⟩) (w1b1 V c ⟨0, hn⟩))
  | n + 1, hn =>
    if (n + 1) % 9 = 0 then
      step1 (grid1.coords ⟨n + 1, hn⟩) (w2b1 V c ⟨n + 1, hn⟩) (tgb1 V c ⟨n + 1, hn⟩) (init1 (xb1 V c ⟨n + 1, hn⟩) (w1b1 V c ⟨n + 1, hn⟩))
    else
      step1 (grid1.coords ⟨n + 1, hn⟩) (w2b1 V c ⟨n + 1, hn⟩) (tgb1 V c ⟨n + 1, hn⟩) (sAt1 c n (Nat.lt_of_succ_lt hn))

theorem sAt1_A (c : Dev nD) (t : Fin cfg1.N) (h0 : t.val % 9 = 0) :
    sAt1 V c t.val t.isLt = step1 (grid1.coords t) (w2b1 V c t) (tgb1 V c t) (init1 (xb1 V c t) (w1b1 V c t)) := by
  obtain ⟨n, hn⟩ := t
  cases n with
  | zero => rfl
  | succ n => exact if_pos h0

theorem sAt1_BC (c : Dev nD) (t : Fin cfg1.N) (h0 : ¬t.val % 9 = 0) :
    sAt1 V c t.val t.isLt = step1 (grid1.coords t) (w2b1 V c t) (tgb1 V c t) (sAt1 V c (t.val - 1) (Nat.lt_of_le_of_lt (Nat.sub_le _ _) t.isLt)) := by
  obtain ⟨n, hn⟩ := t
  cases n with
  | zero => exact absurd (Nat.zero_mod _) h0
  | succ n => exact if_neg h0

def oAt1 (c : Dev nD) (n : ℕ) (hn : n < cfg1.N) : Vec F S512x1 .f32 :=
  fin1 (cb1 V c ⟨n, hn⟩) (sAt1 V c n hn)

theorem oAt1_eq (c : Dev nD) (t : Fin cfg1.N) : oAt1 V c t.val t.isLt = fin1 (cb1 V c t) (sAt1 V c t.val t.isLt) := rfl

def PhiS1 (c : Dev nD) : (n : ℕ) → n ≤ cfg1.N → sProp 𝕄
  | 0, _ => Pipeline.ΦA spec1 c
  | n + 1, hn => iprop(iprop(iprop(owns (c : Thread nD τ) scM1_0 fullShare (sAt1 V c n hn).1 ∗ owns (c : Thread nD τ) scM1_1 fullShare (sAt1 V c n hn).2.1 ∗ owns (c : Thread nD τ) scM1_2 fullShare (sAt1 V c n hn).2.2.1 ∗ owns (c : Thread nD τ) scM1_3 fullShare (sAt1 V c n hn).2.2.2)
      ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiS1 V c (n - 1 + 1) (by omega) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.val_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; rfl) t d).trans rfl

end Cert.Kernel.Reg

end
-- ==== Proof.K.Reg1.Runs.lean ====
import proofs.«416445_j13245679141252_2_alg».proof.Proof.K.Reg1.Base
import Idealize.ShloMosaic.Lib.Pipeline.Value

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid1.Coords} {arg2 : Memref sig .tc .vmem S512x2048 .f32} {harg2 : arg2.IsWhole} {arg3 : Memref sig .tc .vmem S512x2048 .f32} {harg3 : arg3.IsWhole} {arg4 : Memref sig .tc .vmem S1000x512 .f32} {harg4 : arg4.IsWhole} {arg5 : Memref sig .tc .vmem S512x1 .i32} {harg5 : arg5.IsWhole} {arg6 : Memref sig .tc .vmem S512x1 .f32} {harg6 : arg6.IsWhole} {arg7 : Memref sig .tc .vmem S512x1 .f32} {harg7 : arg7.IsWhole} {arg8 : Memref sig .tc .vmem S512x512 .bf16} {harg8 : arg8.IsWhole} {arg9 : Memref sig .tc .vmem S512x1 .f32} {harg9 : arg9.IsWhole} {arg10 : Memref sig .tc .vmem S512x1 .f32} {harg10 : arg10.IsWhole} {arg11 : Memref sig .tc .vmem S512x1 .f32} {harg11 : arg11.IsWhole}

set_option maxHeartbeats 4000000 in
theorem run1 (hx : cond1_0 i → ¬cond1_2 i)
    (x0 : Vec F S512x2048 .f32) (x1 : Vec F S512x2048 .f32) (x2 : Vec F S1000x512 .f32) (x3 : Vec F S512x1 .i32) (x4 : Vec F S512x1 .f32) (xi5 : Vec F S512x1 .f32) (s : St1 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (if cond1_2 i then fin1 x4 (step1 i x2 x3 (if cond1_0 i then init1 x0 x1 else s)) else xi5) ∗ owns (c : Thread nD τ) arg8 fullShare (step1 i x2 x3 (if cond1_0 i then init1 x0 x1 else s)).1 ∗ owns (c : Thread nD τ) arg9 fullShare (step1 i x2 x3 (if cond1_0 i then init1 x0 x1 else s)).2.1 ∗ owns (c : Thread nD τ) arg10 fullShare (step1 i x2 x3 (if cond1_0 i then init1 x0 x1 else s)).2.2.1 ∗ owns (c : Thread nD τ) arg11 fullShare (step1 i x2 x3 (if cond1_0 i then init1 x0 x1 else s)).2.2.2) -∗ K ⟨⟩))
      ⊢ wp frame (wpE (defs₀ (F := F)) Variants.none c none) E (cc1__tail_kernel i arg2 harg2 arg3 harg3 arg4 harg4 arg5 harg5 arg6 harg6 arg7 harg7 arg8 harg8 arg9 harg9 arg10 harg10 arg11 harg11) K := by
  have hz2 : (![0, 0] : Fin 2 → ℕ) = fun _ => 0 := by funext a; fin_cases a <;> rfl
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2; obtain rfl := harg11.eq_unread hfs3
  by_cases hc0 : cond1_0 i <;> by_cases hc2 : cond1_2 i
  · exact absurd hc2 (hx hc0)
  all_goals
    first | rw [if_pos hc0] | rw [if_neg hc0]
    first | rw [if_pos hc2] | rw [if_neg hc2]
    simp only [cc1__tail_kernel_eq_skeleton]; unfold cc1__tail_kernel_skel
    simp only [k1_part1_eq_skeleton]
    sl_exec (disch := first | exact hc0 | exact hc2)
    sl_step
    iapply Hk
    isplitl [H0]; rotate_left; isplitl [H1]; rotate_left; isplitl [H2]; rotate_left; isplitl [H3]; rotate_left; isplitl [H4]; rotate_left
    isplitl [H5]; rotate_left; isplitl [HS0]; rotate_left; isplitl [HS1]; rotate_left; isplitl [HS2]; rotate_left
    all_goals
      iexists _; isplitr; swap
      · first | iexact H0 | iexact H1 | iexact H2 | iexact H3 | iexact H4 | iexact H5 | iexact HS0 | iexact HS1 | iexact HS2 | iexact HS3
      ipureintro
    rotate_left
    iterate 5 exact Memref.IsWhole.read_unread _ _
    on_goal 2 => try (have : ¬cond1_0 i := hc0; exact Memref.IsWhole.read_unread _ _)
    try (have : ¬cond1_2 i := hc2; exact hf5)
    all_goals
      sl_unfold_words
      first
      | refine (View.read_writes_eq_canon _ _ _ (fun y => ⟨_, List.Mem.head _, by exact View.mem_set_unit_zero (S := S512x1) hz2 inb_S512x1_S512x1_0_0 y⟩)).trans ((View.canon_cons_unit_zero (S := S512x1) hz2 inb_S512x1_S512x1_0_0 _ _).trans ?_)
      | refine (View.read_writes_eq_canon _ _ _ (fun y => ⟨_, List.Mem.head _, by exact View.mem_set_unit_zero (S := S512x512) hz2 inb_S512x512_S512x512_0_0 y⟩)).trans ((View.canon_cons_unit_zero (S := S512x512) hz2 inb_S512x512_S512x512_0_0 _ _).trans ?_)
      simp only [View.readAt_eq_ld, harg2.read_unread, harg3.read_unread, harg4.read_unread, harg5.read_unread, harg6.read_unread, harg8.read_unread, harg9.read_unread, harg10.read_unread, harg11.read_unread, View.ld_unit_zero (S := S512x1) hz2, View.ld_unit_zero (S := S512x512) hz2, View.ld_unit_zero (S := S1000x512) hz2, View.ld_unit_zero (S := S512x2048) hz2, View.readCov_unit_zero (S := S512x1) _ hz2, View.readCov_unit_zero (S := S512x512) _ hz2]
      try rfl

end Cert.Kernel.Reg

end
-- ==== Proof.K.Reg1.lean ====
import proofs.«416445_j13245679141252_2_alg».proof.Proof.K.Reg1.Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare (xb1 V c t)
    ∗ owns (c : Thread nD τ) (ms1_1 t) fullShare (w1b1 V c t)
    ∗ owns (c : Thread nD τ) (ms1_2 t) fullShare (w2b1 V c t)
    ∗ owns (c : Thread nD τ) (ms1_3 t) fullShare (tgb1 V c t)
    ∗ owns (c : Thread nD τ) (ms1_4 t) fullShare (cb1 V c t)
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1.eq_2, PhiS1_castSucc V c t]
  rcases (by omega : (t.val % 9 = 0 ∧ ¬t.val % 9 = 8 ∧ t.val = 0) ∨ (t.val % 9 = 0 ∧ ¬t.val % 9 = 8 ∧ ¬t.val = 0) ∨ (¬t.val % 9 = 0 ∧ t.val % 9 = 8 ∧ ¬t.val = 0) ∨ (¬t.val % 9 = 0 ∧ ¬t.val % 9 = 8 ∧ ¬t.val = 0)) with
    ⟨h0, h2, hz⟩ | ⟨h0, h2, hz⟩ | ⟨h0, h2, hz⟩ | ⟨h0, h2, hz⟩
  all_goals
    first | have hc0 := (hcond1_0 t).mpr h0 | have hc0 := mt (hcond1_0 t).mp h0
    first | have hc2 := (hcond1_2 t).mpr h2 | have hc2 := mt (hcond1_2 t).mp h2
    first
    | rw [Dat.leavesExact_idle (dat1 V c) 5 t (idleAt1_5 t hc2) (noFlush1_5 t hc2)]
    | rw [show (dat1 V c).leavesExact 5 t = owns (c : Thread nD τ) (ms1_5 t) fullShare ((dat1 V c).after 5 t) from by
        unfold Dat.leavesExact; rw [liveAt1_5 t hc2], after1_5, oAt1_eq]
    first | rw [sAt1_A V c t h0] | rw [sAt1_BC V c t h0]
    first | rw [PhiS1_zero V c _ _ hz, PhiA1_eq] | rw [PhiS1_pos V c _ _ hz, PhiS1.eq_2]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩⟩
    first
    | icases HS0 with ⟨%e0, HS0⟩; icases HS1 with ⟨%e1, HS1⟩; icases HS2 with ⟨%e2, HS2⟩; icases HS3 with ⟨%e3, HS3⟩
      iapply (run1 (i := grid1.coords t) (fun h0 h2 => by have := (hcond1_0 t).mp h0; have := (hcond1_2 t).mp h2; omega) (xb1 V c t) (w1b1 V c t) (w2b1 V c t) (tgb1 V c t) (cb1 V c t) _ (e0, e1, e2, e3) Set.univ _)
    | iapply (run1 (i := grid1.coords t) (fun h0 h2 => by have := (hcond1_0 t).mp h0; have := (hcond1_2 t).mp h2; omega) (xb1 V c t) (w1b1 V c t) (w2b1 V c t) (tgb1 V c t) (cb1 V c t) _ (sAt1 V c (t.val - 1) (Nat.lt_of_le_of_lt (Nat.sub_le _ _) t.isLt)) Set.univ _)
    first | rw [if_pos hc0] | rw [if_neg hc0]
    first | rw [if_pos hc2] | rw [if_neg hc2]
    isplitl [H0]; rotate_left; isplitl [H1]; rotate_left; isplitl [H2]; rotate_left; isplitl [H3]; rotate_left; isplitl [H4]; rotate_left
    isplitl [H5]; rotate_left; isplitl [HS0]; rotate_left; isplitl [HS1]; rotate_left; isplitl [HS2]; rotate_left; isplitl [HS3]; rotate_left
    all_goals try first | iexact H0 | iexact H1 | iexact H2 | iexact H3 | iexact H4 | iexact H5 | iexact HS0 | iexact HS1 | iexact HS2 | iexact HS3
    iintro ⟨H0, H1, H2, H3, H4, H5, HS0, HS1, HS2, HS3⟩
    isplitl [HS0 HS1 HS2 HS3 Hr Hg]
    · isplitl [HS0 HS1 HS2 HS3 Hr]
      · isplitl [HS0 HS1 HS2 HS3]
        · isplitl [HS0]; · iexact HS0
          isplitl [HS1]; · iexact HS1
          isplitl [HS2]; · iexact HS2
          iexact HS3
        iexact Hr
      iexact Hg
    isplitl [Ho]; · iexact Ho
    isplitl [H0]; · iexact H0
    isplitl [H1]; · iexact H1
    isplitl [H2]; · iexact H2
    isplitl [H3]; · iexact H3
    isplitl [H4]; · iexact H4
    first | iexact H5 | (iexists _; iexact H5)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiS1.eq_2, PhiA1_eq]
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

theorem hout1 (c : Dev nD) : (dat1 V c).Φ (Fin.last cfg1.N) ⊢ Pipeline.ΦA spec1 c :=
  Phi_out1 V c _ (by rw [Fin.val_last]; have : cfg1.N = 72 := N_1; omega)

end Cert.Kernel.Reg

end
-- ==== Proof.K.Reg2f.lean ====
import proofs.«416445_j13245679141252_2_alg».proof.Proof.Gen.Kernel.Launch
import proofs.«416445_j13245679141252_2_alg».proof.Proof.Gen.Kernel.Skeleton
import proofs.«416445_j13245679141252_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Nothing the frame needs depends on what the body stores: on whole memrefs it runs at every grid point and hands every buffer back, the inputs as they were, the output and the scratch at some contents. -/
theorem kernelRun2 (c : Dev nD) (i : grid2.Coords) {a2 : Memref sig .tc .vmem S512x2048 .f32} {h2 : a2.IsWhole} {a3 : Memref sig .tc .vmem S128x2048 .f32} {h3 : a3.IsWhole} {a4 : Memref sig .tc .vmem S4096x128 .f32} {h4 : a4.IsWhole} {a5 : Memref sig .tc .vmem S512x1 .i32} {h5 : a5.IsWhole} {a6 a7 a9 a10 a11 : Memref sig .tc .vmem S512x1 .f32} {h6 : a6.IsWhole} {h7 : a7.IsWhole} {a8 : Memref sig .tc .vmem S512x128 .bf16} {h8 : a8.IsWhole} {h9 : a9.IsWhole} {h10 : a10.IsWhole} {h11 : a11.IsWhole}
    (x0 : Vec F S512x2048 .f32) (x1 : Vec F S128x2048 .f32) (x2 : Vec F S4096x128 .f32) (x3 : Vec F S512x1 .i32) (x4 : Vec F S512x1 .f32) (E : Set ℕ) (K : PUnit → sProp 𝕄) :
    iprop(iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ (∃ d, owns (c : Thread nD τ) a7 fullShare d)
        ∗ (∃ d, owns (c : Thread nD τ) a8 fullShare d) ∗ (∃ d, owns (c : Thread nD τ) a9 fullShare d)
        ∗ (∃ d, owns (c : Thread nD τ) a10 fullShare d) ∗ (∃ d, owns (c : Thread nD τ) a11 fullShare d))
      ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ (∃ d, owns (c : Thread nD τ) a7 fullShare d)
        ∗ (∃ d, owns (c : Thread nD τ) a8 fullShare d) ∗ (∃ d, owns (c : Thread nD τ) a9 fullShare d)
        ∗ (∃ d, owns (c : Thread nD τ) a10 fullShare d) ∗ (∃ d, owns (c : Thread nD τ) a11 fullShare d)) -∗ K ⟨⟩))
      ⊢ wp frame (wpE (defs₀ (F := F)) Variants.none c none) E (cc2__tail_kernel i a2 h2 a3 h3 a4 h4 a5 h5 a6 h6 a7 h7 a8 h8 a9 h9 a10 h10 a11 h11) K := by
  simp only [cc2__tail_kernel_eq_skeleton]; unfold cc2__tail_kernel_skel
  simp only [k2_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩⟩, Hk⟩
  subst hf0 hf1 hf2 hf3 hf4
  by_cases hc0 : Scalar.cmpi .ne (Scalar.extui (Scalar.cmpi .eq (BitVec.ofNat 32 (i 1).val) (0#32 : BitVec 32)) : BitVec 32) (0#32 : BitVec 32) = 1#1 <;> by_cases hc1 : k2_cond2 i = 1#1 <;> (
    sl_exec (disch := first | exact hc0 | exact hc1)
    sl_step
    iapply Hk
    isplitl [H0]; swap; isplitl [H1]; swap; isplitl [H2]; swap; isplitl [H3]; swap; isplitl [H4]; swap
    isplitl [H5]; swap; isplitl [H6]; swap; isplitl [H7]; swap; isplitl [H8]; swap
    all_goals
      repeat iexists _
      isplitr; swap; · iassumption
      ipureintro; rfl)

abbrev sc2_0 : Memref sig .tc .vmem S512x128 .bf16 := Memref.whole cc2_scratch0
abbrev sc2_1 : Memref sig .tc .vmem S512x1 .f32 := Memref.whole cc2_scratch1
abbrev sc2_2 : Memref sig .tc .vmem S512x1 .f32 := Memref.whole cc2_scratch2
abbrev sc2_3 : Memref sig .tc .vmem S512x1 .f32 := Memref.whole cc2_scratch3

theorem PhiA2_eq (c : Dev nD) :
    (Pipeline.ΦA spec2 c : sProp 𝕄)
      = iprop(iprop(iprop((∃ d, owns (c : Thread nD τ) sc2_0 fullShare d) ∗ (∃ d, owns (c : Thread nD τ) sc2_1 fullShare d)
            ∗ (∃ d, owns (c : Thread nD τ) sc2_2 fullShare d) ∗ (∃ d, owns (c : Thread nD τ) sc2_3 fullShare d))
          ∗ Pipeline.scopedRestBut (Ix := Unit) (Name := ℕ) (U := UR sig nD τ) (Lvl := ℕ) (Val := Elt F) spec2 c [cc2_scratch0, cc2_scratch1, cc2_scratch2, cc2_scratch3])
        ∗ (∃ r, prngReg c r)) := by
  unfold Pipeline.ΦA; rw [scopedRest2_split]; simp only [sc2_0, sc2_1, sc2_2, sc2_3, owns_whole]; try rfl

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def fgt2 : Fin cfg2.W → Bool := fun | 0 => false | 1 => false | 2 => false | 3 => false | 4 => false | 5 => true | ⟨_ + 6, h⟩ => absurd h (Nat.not_lt.2 (Nat.le_add_left _ _))

def dat2f (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => win2_2.fill (grid2.coords t) (fun _ => Scalar.ofBits .f32 0#32) (iblk2 V c 2 t)
    | ⟨3, _⟩ => iblk2 V c 3 t
    | ⟨4, _⟩ => iblk2 V c 4 t
    | ⟨5, h⟩ => Pipeline.Dat.unnamed (cfg := cfg2) ⟨5, h⟩ t
  Φ _ := Pipeline.ΦA spec2 c
  q _ := fullShare
  owed _ := 0

theorem A_eq2f (c : Dev nD) (w : Fin cfg2.W) : (dat2f V c).A w = V c (Pipeline.arrRef spec2 w) := by
  dsimp only [dat2f]

theorem after2_2 (c : Dev nD) (t : Fin cfg2.N) :
    (dat2f V c).after 2 t = win2_2.fill (grid2.coords t) (fun _ => Scalar.ofBits .f32 0#32) (iblk2 V c 2 t) := by dsimp only [dat2f]

theorem before2_0 (c : Dev nD) (t : Fin cfg2.N) (d) : (dat2f V c).before 0 t d = iblk2 V c 0 t :=
  (dat2f V c).before_in_eq_fetched 0 rfl (fun _ => rfl) (fun _ _ _ => rfl) (fun _ => rfl) t d
theorem before2_1 (c : Dev nD) (t : Fin cfg2.N) (d) : (dat2f V c).before 1 t d = iblk2 V c 1 t :=
  (dat2f V c).before_in_eq_fetched 1 rfl (fun _ => rfl) (fun _ _ _ => rfl) (fun _ => rfl) t d
theorem before2_3 (c : Dev nD) (t : Fin cfg2.N) (d) : (dat2f V c).before 3 t d = iblk2 V c 3 t :=
  (dat2f V c).before_in_eq_fetched 3 rfl (fun _ => rfl) (fun _ _ _ => rfl) (fun _ => rfl) t d
theorem before2_4 (c : Dev nD) (t : Fin cfg2.N) (d) : (dat2f V c).before 4 t d = iblk2 V c 4 t :=
  (dat2f V c).before_in_eq_fetched 4 rfl (fun _ => rfl) (fun _ _ _ => rfl) (fun _ => rfl) t d
theorem before2_2 (c : Dev nD) (t : Fin cfg2.N) (d) :
    (dat2f V c).before 2 t d = win2_2.fill (grid2.coords t) d (iblk2 V c 2 t) :=
  (dat2f V c).before_fetched 2 t (fetch2_2 t) d

theorem sound_body2f (c : Dev nD) (t : Fin cfg2.N) :
    iprop(Pipeline.ΦA spec2 c ∗ (dat2f V c).owesAt () t.castSucc
      ∗ (∃ d, owns (c : Thread nD τ) (st2_0 t) fullShare ((dat2f V c).before 0 t d))
      ∗ (∃ d, owns (c : Thread nD τ) (st2_1 t) fullShare ((dat2f V c).before 1 t d))
      ∗ (∃ d, owns (c : Thread nD τ) (st2_2 t) fullShare ((dat2f V c).before 2 t d))
      ∗ (∃ d, owns (c : Thread nD τ) (st2_3 t) fullShare ((dat2f V c).before 3 t d))
      ∗ (∃ d, owns (c : Thread nD τ) (st2_4 t) fullShare ((dat2f V c).before 4 t d))
      ∗ (∃ X, owns (c : Thread nD τ) (st2_5 t) fullShare X))
    ⊢ wp frame (wpE (defs₀ (F := F)) Variants.none c none) Set.univ (bodyAt2 t) (fun _ => iprop(Pipeline.ΦA spec2 c ∗ (dat2f V c).owesAt () t.castSucc
      ∗ owns (c : Thread nD τ) (st2_0 t) fullShare (iblk2 V c 0 t) ∗ owns (c : Thread nD τ) (st2_1 t) fullShare (iblk2 V c 1 t)
      ∗ (∃ d, owns (c : Thread nD τ) (st2_2 t) fullShare (win2_2.fill (grid2.coords t) d (win2_2.cut (grid2.coords t) ((dat2f V c).after 2 t))))
      ∗ owns (c : Thread nD τ) (st2_3 t) fullShare (iblk2 V c 3 t) ∗ owns (c : Thread nD τ) (st2_4 t) fullShare (iblk2 V c 4 t)
      ∗ (∃ X, owns (c : Thread nD τ) (st2_5 t) fullShare X))) := by
  unfold bodyAt2
  simp only [before2_0, before2_1, before2_2, before2_3, before2_4, after2_2, Window.cut_fill]
  rw [PhiA2_eq]
  iintro ⟨⟨⟨⟨S0, S1, S2, S3⟩, HR⟩, Hg⟩, Ho, ⟨%d0, H0⟩, ⟨%d1, H1⟩, ⟨%d2, H2⟩, ⟨%d3, H3⟩, ⟨%d4, H4⟩, H5⟩
  iapply (kernelRun2 c (grid2.coords t) (iblk2 V c 0 t) (iblk2 V c 1 t) (win2_2.fill (grid2.coords t) d2 (iblk2 V c 2 t)) (iblk2 V c 3 t) (iblk2 V c 4 t) Set.univ _)
  iframe H0 H1 H2 H3 H4 H5 S0 S1 S2 S3
  iintro ⟨H0, H1, H2, H3, H4, H5, S0, S1, S2, S3⟩
  iframe S0 S1 S2 S3 HR Hg Ho H0 H1 H3 H4 H5
  iexists d2; iexact H2

theorem body_obligation2f (c : Dev nD) : BodyObligationLoose (dat2f (F := F) V c) (defs₀ (F := F)) Variants.none () Set.univ fgt2 := fun t => by
  rw [bigSep_W2, bigSep_W2]
  exact sound_body2f V c t

end Cert.Kernel.Reg

end
-- ==== Proof.K.Run.lean ====
import proofs.«416445_j13245679141252_2_alg».proof.Proof.Gen.Kernel.Launch
import proofs.«416445_j13245679141252_2_alg».proof.Proof.Gen.Kernel.Skeleton
import proofs.«416445_j13245679141252_2_alg».proof.Proof.Gen.Kernel.Points
import proofs.«416445_j13245679141252_2_alg».proof.Proof.Gen.Kernel.Regions
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic
import proofs.«416445_j13245679141252_2_alg».proof.Proof.K.Reg0
import proofs.«416445_j13245679141252_2_alg».proof.Proof.K.Reg1
import proofs.«416445_j13245679141252_2_alg».proof.Proof.K.Reg2f

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

namespace Run

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev Vt1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vt2 : (c : Dev nD) → (b : Ref sig .tc) → Buf (Elt F) ((c : Thread nD τ).loc b) := fun c b => W2 m c b
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev Vt3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vt4 : (c : Dev nD) → (b : Ref sig .tc) → Buf (Elt F) ((c : Thread nD τ).loc b) := fun c b => W4 m c b
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)

def X2 (c : Dev nD) : Type :=
  {A : (w : Fin cfg2.W) → Buf (Elt F) ((cfg2.win w).arr.view.loc (c : Thread nD τ)) //
    ∀ w, (cfg2.win w).isOut = false → A w = Vt4 m c (Pipeline.arrRef spec2 w)}

def W5 (c : Dev nD) (x : X2 m c) : Valuation τ sig (Elt F) := Pipeline.withArrays spec2 c (W4 m c) x.1
theorem W5_arr (c : Dev nD) (x : X2 m c) (w : Fin cfg2.W) :
    W5 m c x (Proc.devRef .tc (Pipeline.arrRef spec2 w)) = x.1 w := by
  unfold W5; exact Pipeline.withArrays_arr spec2 launch2.win.arr_inj c _ _ w
theorem W5_of_ne (c : Dev nD) (x : X2 m c) (b : Ref sig .tc) (hb : ∀ w, Pipeline.arrRef spec2 w ≠ b) :
    W5 m c x (Proc.devRef .tc b) = W4 m c (Proc.devRef .tc b) := by
  unfold W5; exact Pipeline.withArrays_of_ne spec2 c _ _ b hb
abbrev Vt5 (c : Dev nD) (x : X2 m c) : (b : Ref sig .tc) → Buf (Elt F) ((c : Thread nD τ).loc b) := fun b => W5 m c x b

abbrev W6 (c : Dev nD) (x : X2 m c) : Valuation τ sig (Elt F) := StableHlo.after hostOps3 (W5 m c x)
abbrev W7 (c : Dev nD) (x : X2 m c) : Valuation τ sig (Elt F) := StableHlo.after hostOps3_1 (W6 m c x)
abbrev W8 (c : Dev nD) (x : X2 m c) : Valuation τ sig (Elt F) := StableHlo.after hostOps3_2 (W7 m c x)
abbrev W9 (c : Dev nD) (x : X2 m c) : Valuation τ sig (Elt F) := StableHlo.after hostOps3_3 (W8 m c x)

theorem withArrays_keep {gr W : Nat} (win : Fin W → Pipeline.WinSpec sig gr) (hinj : Function.Injective (Pipeline.arrRef win)) (c : Dev nD)
    (V : Valuation τ sig (Elt F)) (A : (w : Fin W) → Buf (Elt F) ((win w).arr.view.loc (c : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

/-- A region changes only its output array. -/
theorem W2_keep (c : Dev nD) (b : Ref sig .tc) (hb : ∀ w, Pipeline.arrRef spec0 w = b → (cfg0.win w).isOut = false) :
    W2 m c (Proc.devRef .tc b) = W1 m c (Proc.devRef .tc b) := by
  unfold W2
  exact withArrays_keep spec0 launch0.win.arr_inj c _ _ b fun w e => ((dat0 (Vt1 m) c).arrAt_in w (hb w e) _).trans (A_eq0 (Vt1 m) c w)
theorem W4_keep (c : Dev nD) (b : Ref sig .tc) (hb : ∀ w, Pipeline.arrRef spec1 w = b → (cfg1.win w).isOut = false) :
    W4 m c (Proc.devRef .tc b) = W3 m c (Proc.devRef .tc b) := by
  unfold W4
  exact withArrays_keep spec1 launch1.win.arr_inj c _ _ b fun w e => ((dat1 (Vt3 m) c).arrAt_in w (hb w e) _).trans (A_eq1 (Vt3 m) c w)
theorem W5_keep (c : Dev nD) (x : X2 m c) (b : Ref sig .tc) (hb : ∀ w, Pipeline.arrRef spec2 w = b → (cfg2.win w).isOut = false) :
    W5 m c x (Proc.devRef .tc b) = W4 m c (Proc.devRef .tc b) := by
  unfold W5
  exact withArrays_keep spec2 launch2.win.arr_inj c _ _ b fun w e => x.2 w (hb w e)

abbrev mainArgs : List (Ref sig .tc) := [main_arg0, main_arg1, main_arg2, main_arg3, main_arg4, main_arg5, main_arg6]

/-- No host operation writes an argument, and a region only reads one or passes it by. -/
theorem args_kept : ∀ b ∈ mainArgs, ¬ (Proc.devRef .tc b : DevRef τ sig).isScoped
    ∧ b ∉ hostOps0_W ∧ b ∉ hostOps1_W ∧ b ∉ hostOps3_W ∧ b ∉ hostOps3_1_W ∧ b ∉ hostOps3_2_W ∧ b ∉ hostOps3_3_W
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false) := by decide

theorem W9_arg (c : Dev nD) (x : X2 m c) (b : Ref sig .tc) (hb : b ∈ mainArgs) :
    W9 m c x (Proc.devRef .tc b) = m ((c : Thread nD τ).loc b) := by
  obtain ⟨-, h0, h1, h3, h31, h32, h33, k0, k1, k2⟩ := args_kept b hb
  exact (StableHlo.after_of_writes_sub hostOps3_3 _ hostOps3_3_writes h33).trans <|
    (StableHlo.after_of_writes_sub hostOps3_2 _ hostOps3_2_writes h32).trans <|
    (StableHlo.after_of_writes_sub hostOps3_1 _ hostOps3_1_writes h31).trans <|
    (StableHlo.after_of_writes_sub hostOps3 _ hostOps3_writes h3).trans <|
    (W5_keep m c x b k2).trans <| (W4_keep m c b k1).trans <|
    (StableHlo.after_of_writes_sub hostOps1 _ hostOps1_writes h1).trans <|
    (W2_keep m c b k0).trans (StableHlo.after_of_writes_sub hostOps0 (W0 m c) hostOps0_writes h0)

abbrev admR : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) admR p) c
  | ⟨0, _⟩ => fun c => dat0 (Vt1 m) c
  | ⟨1, _⟩ => fun c => dat1 (Vt3 m) c
  | ⟨2, _⟩ => fun c => dat2f (Vt4 m) c

def rdats : (p : Fin 3) → (c : Dev nD) → RDat τ (Elt F) Unit ℕ (UR sig nD τ) ℕ (Pipeline.pin (pcfgs (F := F)) admR p) c
  | ⟨0, _⟩ => fun c => (dat0 (Vt1 m) c).toR
  | ⟨1, _⟩ => fun c => (dat1 (Vt3 m) c).toR
  | ⟨2, _⟩ => fun c => (dat2f (Vt4 m) c).toRForget fgt2
abbrev 𝒱r : Variants := Variants.none

abbrev Lr : GSem nD τ sig → Finset Unit := fun _ => ∅
abbrev lvr : GSem nD τ sig → Unit → ℕ := fun _ _ => 0

abbrev Rr (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

set_option backward.isDefEq.respectTransparency.types false in

def exSeg (ops : List (HloOp τ sig (Elt F))) (hsub : ops.Forall fun op => op.bufs ⊆ StableHlo.tcRefs τ sig)
    (hfresh : ops.Forall fun op => op.fresh = ∅) (Wf : (c : Dev nD) → X2 m c → Valuation τ sig (Elt F)) :
    Pipeline.HostSeg (Name := ℕ) (U := UR sig nD τ) (pcfgs (F := F)) defs₀ 𝒱r Lr lvr where
  prog := StableHlo.seq ops
  pre c := iprop(∃ x : X2 m c, StableHlo.held (c : Thread nD τ) (Pipeline.ucRefs τ sig) (Wf c x) ∗ Rr c)
  post c := iprop(∃ x : X2 m c, StableHlo.held (c : Thread nD τ) (Pipeline.ucRefs τ sig) (StableHlo.after ops (Wf c x)) ∗ Rr c)
  run c {β} k K := by
    iintro ⟨Hk, Hbd, ⟨%x, Hpre⟩, Hla⟩
    iapply ((hseg ops hsub hfresh (fun _ => Wf c x)).run c k K)
    isplitl [Hk]
    · iintro ⟨Hbd, Hpost⟩
      iapply Hk
      isplitl [Hbd]; · iexact Hbd
      ihave Hpost' := (show (hseg ops hsub hfresh fun _ => Wf c x).post c
          ⊢ iprop(StableHlo.held (c : Thread nD τ) (Pipeline.ucRefs τ sig) (StableHlo.after ops (Wf c x)) ∗ Rr c) from .rfl) $$ Hpost
      iexists x; iexact Hpost'
    isplitl [Hbd]; · iexact Hbd
    isplitl [Hpre]
    · iapply (show iprop(StableHlo.held (c : Thread nD τ) (Pipeline.ucRefs τ sig) (Wf c x) ∗ Rr c)
          ⊢ (hseg ops hsub hfresh fun _ => Wf c x).pre c from .rfl)
      iexact Hpre
    iexact Hla

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 :=
  iprop(∃ x : X2 m c, StableHlo.held (c : Thread nD τ) (Pipeline.ucRefs τ sig) (W9 m c x) ∗ ∃ r, prngReg c r)

theorem arraysAt_open {cfg : Pipeline.Cfg sig Λ₀} {c : Dev nD} (rd : RDat τ (Elt F) Unit ℕ (UR sig nD τ) ℕ cfg c) (n : Nat) :
    (rd.arraysAt n : sProp 𝕄) ⊢ iprop(∃ A : (w : Fin cfg.W) → Buf (Elt F) ((cfg.win w).arr.view.loc (c : Thread nD τ)),
      ⌜∀ w, rd.ArrAt w n (A w)⌝ ∗ rd.arrays A) := by
  unfold Pipeline.RDat.arraysAt Pipeline.RDat.arrays
  iintro Ha
  ihave Ha' := (BI.bigSep_exists_pi Finset.univ (fun (w : Fin cfg.W) (G : Buf (Elt F) ((cfg.win w).arr.view.loc (c : Thread nD τ))) =>
      iprop(⌜rd.ArrAt w n G⌝ ∗ (cfg.win w).arr.view.loc (c : Thread nD τ) ↦[(cfg.win w).arr.view.set]{rd.share w} G))) $$ Ha
  icases Ha' with ⟨%A, Ha⟩
  ihave Ha2 := (BI.bigSep_pure_sep Finset.univ (fun w => rd.ArrAt w n (A w))
      (fun w => ((cfg.win w).arr.view.loc (c : Thread nD τ) ↦[(cfg.win w).arr.view.set]{rd.share w} A w : sProp 𝕄))) $$ Ha
  icases Ha2 with ⟨%hA', Ha⟩
  iexists A; isplitr; · ipureintro; exact fun w => hA' w (Finset.mem_univ w)
  iexact Ha

set_option backward.isDefEq.respectTransparency.types false in
/-- A region whose data name every array, over the thread state: every unscoped buffer goes from `Wi` to `Wo`. -/
def regOf (p : Fin 3) (la : Pipeline.LaunchFacts (nD := nD) (τ := τ) cfgs p) (Wi Wo : Dev nD → Valuation τ sig (Elt F))
    (hbody : ∀ c, (rdats m p c).BodyObligation defs₀ 𝒱r () Set.univ)
    (hq : ∀ c w, (rdats m p c).share w = fullShare) (hq' : ∀ c w, (pdats m p c).share w = fullShare)
    (howed : ∀ c t, (rdats m p c).owed t = 0) (hrec : ∀ c t, (rdats m p c).recorded t = Set.univ)
    (hΦ0 : ∀ c, Pipeline.ΦA (cfgs p).spec c ⊢ (rdats m p c).Φ 0)
    (hΦN : ∀ c, (rdats m p c).Φ (Fin.last (cfgs p).N) ⊢ Pipeline.ΦA (cfgs p).spec c)
    (hA : ∀ c w, (rdats m p c).A w = Wi c (Proc.devRef .tc (Pipeline.arrRef (cfgs p).spec w)))
    (hnamed : ∀ c, ((rdats m p c).arraysAt (cfgs p).N : sProp 𝕄) ⊢ (pdats m p c).arrays ((pdats m p c).arrAt · (cfgs p).N))
    (hF : ∀ c w, (pdats m p c).arrAt w (cfgs p).N = Wo c (Proc.devRef .tc (Pipeline.arrRef (cfgs p).spec w)))
    (hrest : ∀ c b, b ∉ Finset.univ.image (Pipeline.arrRef (cfgs p).spec) → Wo c (Proc.devRef .tc b) = Wi c (Proc.devRef .tc b)) :
    Pipeline.RDat.RegionSeg (pcfgs (F := F)) admR (rdats m) () defs₀ 𝒱r Lr lvr p where
  win := la.win.to₀
  block_pos := la.block_pos
  stage_whole := la.stage_whole
  K := PEmpty
  osem k := k.elim
  ho := Pipeline.OwnSemFacts.none _
  hbody := hbody
  hwaits := Pipeline.RDat.hwaits_of_owed_zero _ _ _ _ Lr lvr p howed
  pre c := iprop(StableHlo.held (c : Thread nD τ) (Pipeline.ucRefs τ sig) (Wi c) ∗ Rr c)
  post c := iprop(StableHlo.held (c : Thread nD τ) (Pipeline.ucRefs τ sig) (Wo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.RDat.arrays_of_unscopedBufs (p := p) (pcfgs (F := F)) admR (rdats m) la.win la.arr_whole c
      (hq c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hΦ0 c)
    unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) admR (Ix := Unit) (Name := ℕ) (U := UR sig nD τ) (Lvl := ℕ)
      la.win la.arr_whole c (pdats m) (hq' c)
      (fun b => Wi c b) (fun b => Wo c b) ((pdats m p c).arrAt · (cfgs p).N) (hF c) (hrest c)
    rw [Pipeline.unscopedBufs_held] at hjoin
    iintro ⟨Ha, HO, HY, Hrest⟩
    ihave Ha' := hnamed c $$ Ha
    imodintro
    isplitl [Ha' Hrest]
    · iapply hjoin; isplitl [Ha'] <;> iassumption
    isplitl [HY]; · iexact HY
    unfold Pipeline.RDat.owesAt Pipeline.owesWithin
    rw [howed c]
    icases HO with ⟨%W, -, HO⟩; iexists W; iexact HO

def reg0 : Pipeline.RDat.RegionSeg (pcfgs (F := F)) admR (rdats m) () defs₀ 𝒱r Lr lvr 0 :=
  regOf m 0 launch0 (W1 m) (W2 m) (fun c => (body_obligation0 (Vt1 m) c).toR) (fun c => (rdats m 0 c).share_full fun _ => rfl)
    (fun c => (pdats m 0 c).share_full fun _ => rfl) (fun _ _ => rfl) (fun _ _ => rfl) (hin0 (Vt1 m)) (hout0 (Vt1 m)) (A_eq0 (Vt1 m))
    (fun c => (dat0 (Vt1 m) c).toR_arraysAt_post cfg0.N) (hF0 m) (hrest0 m)
def reg1 : Pipeline.RDat.RegionSeg (pcfgs (F := F)) admR (rdats m) () defs₀ 𝒱r Lr lvr 1 :=
  regOf m 1 launch1 (W3 m) (W4 m) (fun c => (body_obligation1 (Vt3 m) c).toR) (fun c => (rdats m 1 c).share_full fun _ => rfl)
    (fun c => (pdats m 1 c).share_full fun _ => rfl) (fun _ _ => rfl) (fun _ _ => rfl) (hin1 (Vt3 m)) (hout1 (Vt3 m)) (A_eq1 (Vt3 m))
    (fun c => (dat1 (Vt3 m) c).toR_arraysAt_post cfg1.N) (hF1 m) (hrest1 m)

set_option backward.isDefEq.respectTransparency.types false in

def reg2 : Pipeline.RDat.RegionSeg (pcfgs (F := F)) admR (rdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2f (Vt4 m) c).toRForget
  hwaits := Pipeline.RDat.hwaits_of_owed_zero _ _ _ _ Lr lvr 2 fun _ _ => rfl
  pre c := iprop(StableHlo.held (c : Thread nD τ) (Pipeline.ucRefs τ sig) (W4 m c) ∗ Rr c)
  post c := iprop(∃ x : X2 m c, StableHlo.held (c : Thread nD τ) (Pipeline.ucRefs τ sig) (W5 m c x) ∗ Rr c)
  X c := iprop(∃ r, prngReg c r)
  Y c := iprop(∃ r, prngReg c r)
  Z c := Pipeline.unscopedRest (Ix := Unit) (Name := ℕ) (U := UR sig nD τ) (Lvl := ℕ) spec2 c (Vt4 m c)
  hentry c := by
    rw [Pipeline.ownSems0_none]
    have hsplit := Pipeline.RDat.arrays_of_unscopedBufs (p := 2) (pcfgs (F := F)) admR (rdats m) launch2.win launch2.arr_whole c
      ((rdats m 2 c).share_full fun _ => rfl) (Vt4 m c) (fun w => A_eq2f (Vt4 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (rdats m 2 c).Φ 0 from .rfl)
    unfold Pipeline.ΦA
    iintro ⟨Hp, -, Hr⟩
    isplitl [Hr]; · iexact Hr
    iexact Hp
  hout c := by
    rw [Pipeline.ownSems0_none]
    refine (show (rdats m 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    iintro ⟨Ha, HO, HY, Hrest⟩
    ihave Ha' := (arraysAt_open (rdats m 2 c) cfg2.N) $$ Ha
    icases Ha' with ⟨%A, %hA, Ha⟩
    have hgood : ∀ w, (cfg2.win w).isOut = false → A w = Vt4 m c (Pipeline.arrRef spec2 w) := fun w hin => by
      have h := hA w
      rw [Pipeline.RDat.ArrAt_in (rdats m 2 c) w hin] at h
      exact h.trans (A_eq2f (Vt4 m) c w)
    have hjoin := Pipeline.unscopedBufs_of_arrays (p := 2) (pcfgs (F := F)) admR (Ix := Unit) (Name := ℕ) (U := UR sig nD τ) (Lvl := ℕ)
      launch2.win launch2.arr_whole c (pdats m) ((pdats m 2 c).share_full fun _ => rfl)
      (Vt4 m c) (Vt5 m c ⟨A, hgood⟩) A (fun w => (W5_arr m c ⟨A, hgood⟩ w).symm)
      (fun b hb => W5_of_ne m c ⟨A, hgood⟩ b fun w e => hb (Finset.mem_image.mpr ⟨w, Finset.mem_univ _, e⟩))
    rw [Pipeline.unscopedBufs_held] at hjoin
    ihave Ha2 := (show ((rdats m 2 c).arrays A : sProp 𝕄) ⊢ (pdats m 2 c).arrays A from .rfl) $$ Ha
    imodintro
    iexists ⟨A, hgood⟩
    isplitl [Ha2 Hrest]
    · iapply hjoin; isplitl [Ha2] <;> iassumption
    isplitl [HY]; · iexact HY
    unfold Pipeline.RDat.owesAt Pipeline.owesWithin
    icases HO with ⟨%W, -, HO⟩; iexists W; iexact HO

abbrev segsR : List (Pipeline.RDat.Seg (pcfgs (F := F)) admR (rdats m) () defs₀ 𝒱r Lr lvr) :=
  [ .host (hseg hostOps0 hostOps0_sub hostOps0_fresh (W0 m)),
    .region (reg0 m),
    .host (hseg hostOps1 hostOps1_sub hostOps1_fresh (W2 m)),
    .region (reg1 m),
    .region (reg2 m),
    .host (exSeg m hostOps3 hostOps3_sub hostOps3_fresh (W5 m)),
    .host (exSeg m hostOps3_1 hostOps3_1_sub hostOps3_1_fresh (W6 m)),
    .host (exSeg m hostOps3_2 hostOps3_2_sub hostOps3_2_fresh (W7 m)),
    .host (exSeg m hostOps3_3 hostOps3_3_sub hostOps3_3_fresh (W8 m)) ]

theorem main_run (c : Dev nD) : main (F := F) c = Pipeline.RDat.Seg.run (segsR m) := (main_chain c).trans (by chain_rfl)

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) admR (rdats m) () cellOf_inj emb₁ defs₀ 𝒱r Lr lvr m ρ main (segsR m)
    (fun c Q => by rw [main_run m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun _ => .rfl, fun _ => .rfl, fun _ => .rfl, fun _ => .rfl,
      fun c => show iprop(∃ x : X2 m c, StableHlo.held (c : Thread nD τ) (Pipeline.ucRefs τ sig) (W9 m c x) ∗ Rr c)
          ⊢ iprop(Tₙ m c ∗ ∃ W, owes (c : Thread nD τ) (0 : CellTallies nD τ sig Unit) W) from by
        iintro ⟨%x, Hh, Hp, HO⟩
        isplitl [Hh Hp]
        · iexists x; isplitl [Hh] <;> iassumption
        iexact HO⟩)
    (hinit := by
      refine Pipeline.initEach Lr lvr fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ x : X2 m c, ∀ b ∈ Pipeline.ucRefs τ sig, s.mem (((c : Thread nD τ)).1, b) = W9 m c x b)
    (hfin := fun c s' => by
      iintro ⟨⟨%x, Hh, -⟩, HSI⟩
      unfold StableHlo.held
      ihave Hr := (pointsTo_read_all (Pipeline.ucRefs τ sig) (fun b => (((c : Thread nD τ)).1, b)) (W9 m c x) s') $$ [Hh HSI]
      · isplitl [Hh] <;> iassumption
      icases Hr with ⟨%h, HSI⟩
      imodintro
      isplitr; · ipureintro; exact ⟨x, h⟩
      iexact HSI)
    (hQ := fun s h c => by
      obtain ⟨x, hx⟩ := h c
      have k := fun b hb => (hx _ (mem_uc b (args_kept b hb).1)).trans (W9_arg m c x b hb)
      exact ⟨k main_arg0 (by decide), k main_arg1 (by decide), k main_arg2 (by decide), k main_arg3 (by decide),
        k main_arg4 (by decide), k main_arg5 (by decide), k main_arg6 (by decide)⟩)

end Run

end Cert.Kernel.Reg

end
-- ==== Proof.KI.Reg0.lean ====
import proofs.«416445_j13245679141252_2_alg».proof.Proof.Gen.KernelIdeal.Launch
import proofs.«416445_j13245679141252_2_alg».proof.Proof.Gen.KernelIdeal.Skeleton
import proofs.«416445_j13245679141252_2_alg».proof.Proof.Gen.KernelIdeal.Points
import Idealize.ShloMosaic.Lib.Pipeline.FrameBody
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S512x2048 := Rect.unit (s := S512x2048) ![0, 0] S512x2048.size inb_S512x2048_S512x2048_0_0
abbrev rW : Rect S1002x2048 := Rect.unit (s := S1002x2048) ![0, 0] S1002x2048.size inb_S1002x2048_S1002x2048_0_0
abbrev rT : Rect S512x1 := Rect.unit (s := S512x1) ![0, 0] S512x1.size inb_S512x1_S512x1_0_0
abbrev rO : Rect S512x3 := Rect.unit (s := S512x3) ![0, 0] S512x3.size inb_S512x3_S512x3_0_0

def out0_3 (x0 : Vec F S512x2048 .f32) (x1 : Vec F S1002x2048 .f32) (x2 : Vec F S512x1 .i32) : Vec F S512x3 .f32 :=
  View.canon [⟨rO, k0_pay1 (View.ld x0 rX) (View.ld x1 rW) (View.ld x2 rT)⟩]

theorem sound_kernel0 (c : Dev nD) (E : Set ℕ) (i : grid0.Coords)
    (a0 : Memref sig .tc .vmem S512x2048 .f32) (h0 : a0.IsWhole) (a1 : Memref sig .tc .vmem S1002x2048 .f32) (h1 : a1.IsWhole)
    (a2 : Memref sig .tc .vmem S512x1 .i32) (h2 : a2.IsWhole) (a3 : Memref sig .tc .vmem S512x3 .f32) (h3 : a3.IsWhole)
    (x0 : Vec F S512x2048 .f32) (x1 : Vec F S1002x2048 .f32) (x2 : Vec F S512x1 .i32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__head_kernel i a0 h0 a1 h1 a2 h2 a3 h3) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S512x3.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = out0_3 (iblk0 V c 0 t) (iblk0 V c 1 t) (iblk0 V c 2 t) := by
  refine ⟨?_, ?_, ?_, ?_⟩ <;> dsimp only [dat0]

theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;>
    exact fun d => ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)) := by
  unfold bodyAt0
  rw [show (dat0 V c).Φ t.succ = (dat0 V c).Φ t.castSucc from rfl,
    show (dat0 V c).owesAt () t.succ = (dat0 V c).owesAt () t.castSucc from rfl,
    (after0 V c t).1, (after0 V c t).2.1, (after0 V c t).2.2.1, (after0 V c t).2.2.2]
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c Set.univ _ _ _ _ _ _ _ _ _ _ _ _ _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Reg

end
-- ==== Proof.KI.Reg1.Base.lean ====
import proofs.«416445_j13245679141252_2_alg».proof.Proof.Gen.KernelIdeal.Launch
import proofs.«416445_j13245679141252_2_alg».proof.Proof.Gen.KernelIdeal.Skeleton
import proofs.«416445_j13245679141252_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S512x2048 .f32 := iblk1 V c 0 t

abbrev w1b1 (c : Dev nD) (t : Fin cfg1.N) : Vec F S512x2048 .f32 := iblk1 V c 1 t

abbrev w2b1 (c : Dev nD) (t : Fin cfg1.N) : Vec F S1000x512 .f32 := iblk1 V c 2 t

abbrev tgb1 (c : Dev nD) (t : Fin cfg1.N) : Vec F S512x1 .i32 := iblk1 V c 3 t

abbrev cb1 (c : Dev nD) (t : Fin cfg1.N) : Vec F S512x1 .f32 := iblk1 V c 4 t

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 9 = 0 :=
  (by decide +kernel : ∀ t : Fin grid1.N, cond1_0 (grid1.coords t) ↔ t.val % 9 = 0)

abbrev cond1_2 (i : grid1.Coords) : Prop := k1_cond2 i = 1#1

theorem hcond1_2 : ∀ t : Fin cfg1.N, cond1_2 (grid1.coords t) ↔ t.val % 9 = 8 :=
  (by decide +kernel : ∀ t : Fin grid1.N, cond1_2 (grid1.coords t) ↔ t.val % 9 = 8)

theorem idleAt1_5 : ∀ t : Fin cfg1.N, ¬cond1_2 (grid1.coords t) → cfg1.idle 5 (grid1.coords t) = true := by decide +kernel

theorem noFlush1_5 : ∀ t : Fin cfg1.N, ¬cond1_2 (grid1.coords t) → (cfg1.win 5).flush t = false := by decide +kernel

theorem liveAt1_5 : ∀ t : Fin cfg1.N, cond1_2 (grid1.coords t) → cfg1.idle 5 (grid1.coords t) = false := by decide +kernel

abbrev ms1_0 (t : Fin cfg1.N) : Memref sig .tc .vmem S512x2048 .f32 := win1_0.stage (cfg1.slots t 0)
abbrev ms1_1 (t : Fin cfg1.N) : Memref sig .tc .vmem S512x2048 .f32 := win1_1.stage (cfg1.slots t 1)
abbrev ms1_2 (t : Fin cfg1.N) : Memref sig .tc .vmem S1000x512 .f32 := win1_2.stage (cfg1.slots t 2)
abbrev ms1_3 (t : Fin cfg1.N) : Memref sig .tc .vmem S512x1 .i32 := win1_3.stage (cfg1.slots t 3)
abbrev ms1_4 (t : Fin cfg1.N) : Memref sig .tc .vmem S512x1 .f32 := win1_4.stage (cfg1.slots t 4)
abbrev ms1_5 (t : Fin cfg1.N) : Memref sig .tc .vmem S512x1 .f32 := win1_5.stage (cfg1.slots t 5)

abbrev scM1_0 : Memref sig .tc .vmem S512x512 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1 .f32 := Memref.whole cc1_scratch3

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := by
  unfold Pipeline.ΦA; rw [scopedRest1_split]; simp only [scM1_0, scM1_1, scM1_2, scM1_3, owns_whole]; try rfl

abbrev St1 (F : FTy → Type) : Type := Vec F S512x512 .bf16 × Vec F S512x1 .f32 × Vec F S512x1 .f32 × Vec F S512x1 .f32

def init1 (x : Vec F S512x2048 .f32) (w1 : Vec F S512x2048 .f32) : St1 F :=
  (k1_pay3 x w1, k1_pay4, k1_pay5, k1_pay6)

def step1 (i : grid1.Coords) (w2 : Vec F S1000x512 .f32) (tg : Vec F S512x1 .i32) (s : St1 F) : St1 F :=
  (s.1, k1_pay11 i s.1 w2 s.2.1, k1_pay12 i s.1 w2 s.2.1 s.2.2.1, k1_pay1 (k1_pay7 s.1 w2) (k1_pay8 i) tg s.2.2.2)

def fin1 (cb : Vec F S512x1 .f32) (s : St1 F) : Vec F S512x1 .f32 :=
  k1_pay2 s.2.1 s.2.2.1 cb s.2.2.2

def sAt1 (c : Dev nD) : (n : ℕ) → n < cfg1.N → St1 F
  | 0, hn => step1 (grid1.coords ⟨0, hn⟩) (w2b1 V c ⟨0, hn⟩) (tgb1 V c ⟨0, hn⟩) (init1 (xb1 V c ⟨0, hn⟩) (w1b1 V c ⟨0, hn⟩))
  | n + 1, hn =>
    if (n + 1) % 9 = 0 then
      step1 (grid1.coords ⟨n + 1, hn⟩) (w2b1 V c ⟨n + 1, hn⟩) (tgb1 V c ⟨n + 1, hn⟩) (init1 (xb1 V c ⟨n + 1, hn⟩) (w1b1 V c ⟨n + 1, hn⟩))
    else
      step1 (grid1.coords ⟨n + 1, hn⟩) (w2b1 V c ⟨n + 1, hn⟩) (tgb1 V c ⟨n + 1, hn⟩) (sAt1 c n (Nat.lt_of_succ_lt hn))

theorem sAt1_A (c : Dev nD) (t : Fin cfg1.N) (h0 : t.val % 9 = 0) :
    sAt1 V c t.val t.isLt = step1 (grid1.coords t) (w2b1 V c t) (tgb1 V c t) (init1 (xb1 V c t) (w1b1 V c t)) := by
  obtain ⟨n, hn⟩ := t
  cases n with
  | zero => rfl
  | succ n => exact if_pos h0

theorem sAt1_BC (c : Dev nD) (t : Fin cfg1.N) (h0 : ¬t.val % 9 = 0) :
    sAt1 V c t.val t.isLt = step1 (grid1.coords t) (w2b1 V c t) (tgb1 V c t) (sAt1 V c (t.val - 1) (Nat.lt_of_le_of_lt (Nat.sub_le _ _) t.isLt)) := by
  obtain ⟨n, hn⟩ := t
  cases n with
  | zero => exact absurd (Nat.zero_mod _) h0
  | succ n => exact if_neg h0

def oAt1 (c : Dev nD) (n : ℕ) (hn : n < cfg1.N) : Vec F S512x1 .f32 :=
  fin1 (cb1 V c ⟨n, hn⟩) (sAt1 V c n hn)

theorem oAt1_eq (c : Dev nD) (t : Fin cfg1.N) : oAt1 V c t.val t.isLt = fin1 (cb1 V c t) (sAt1 V c t.val t.isLt) := rfl

def PhiS1 (c : Dev nD) : (n : ℕ) → n ≤ cfg1.N → sProp 𝕄
  | 0, _ => Pipeline.ΦA spec1 c
  | n + 1, hn => iprop(iprop(iprop(owns (c : Thread nD τ) scM1_0 fullShare (sAt1 V c n hn).1 ∗ owns (c : Thread nD τ) scM1_1 fullShare (sAt1 V c n hn).2.1 ∗ owns (c : Thread nD τ) scM1_2 fullShare (sAt1 V c n hn).2.2.1 ∗ owns (c : Thread nD τ) scM1_3 fullShare (sAt1 V c n hn).2.2.2)
      ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiS1 V c (n - 1 + 1) (by omega) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.val_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; rfl) t d).trans rfl

end Cert.KernelIdeal.Reg

end
-- ==== Proof.KI.Reg1.Runs.lean ====
import proofs.«416445_j13245679141252_2_alg».proof.Proof.KI.Reg1.Base
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {i : grid1.Coords} {arg2 : Memref sig .tc .vmem S512x2048 .f32} {harg2 : arg2.IsWhole} {arg3 : Memref sig .tc .vmem S512x2048 .f32} {harg3 : arg3.IsWhole} {arg4 : Memref sig .tc .vmem S1000x512 .f32} {harg4 : arg4.IsWhole} {arg5 : Memref sig .tc .vmem S512x1 .i32} {harg5 : arg5.IsWhole} {arg6 : Memref sig .tc .vmem S512x1 .f32} {harg6 : arg6.IsWhole} {arg7 : Memref sig .tc .vmem S512x1 .f32} {harg7 : arg7.IsWhole} {arg8 : Memref sig .tc .vmem S512x512 .bf16} {harg8 : arg8.IsWhole} {arg9 : Memref sig .tc .vmem S512x1 .f32} {harg9 : arg9.IsWhole} {arg10 : Memref sig .tc .vmem S512x1 .f32} {harg10 : arg10.IsWhole} {arg11 : Memref sig .tc .vmem S512x1 .f32} {harg11 : arg11.IsWhole}

set_option maxHeartbeats 4000000 in
theorem run1 (hx : cond1_0 i → ¬cond1_2 i)
    (x0 : Vec F S512x2048 .f32) (x1 : Vec F S512x2048 .f32) (x2 : Vec F S1000x512 .f32) (x3 : Vec F S512x1 .i32) (x4 : Vec F S512x1 .f32) (xi5 : Vec F S512x1 .f32) (s : St1 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (if cond1_2 i then fin1 x4 (step1 i x2 x3 (if cond1_0 i then init1 x0 x1 else s)) else xi5) ∗ owns (c : Thread nD τ) arg8 fullShare (step1 i x2 x3 (if cond1_0 i then init1 x0 x1 else s)).1 ∗ owns (c : Thread nD τ) arg9 fullShare (step1 i x2 x3 (if cond1_0 i then init1 x0 x1 else s)).2.1 ∗ owns (c : Thread nD τ) arg10 fullShare (step1 i x2 x3 (if cond1_0 i then init1 x0 x1 else s)).2.2.1 ∗ owns (c : Thread nD τ) arg11 fullShare (step1 i x2 x3 (if cond1_0 i then init1 x0 x1 else s)).2.2.2) -∗ K ⟨⟩))
      ⊢ wp frame (wpE (defs₀ (F := F)) Variants.none c none) E (cc1__tail_kernel i arg2 harg2 arg3 harg3 arg4 harg4 arg5 harg5 arg6 harg6 arg7 harg7 arg8 harg8 arg9 harg9 arg10 harg10 arg11 harg11) K := by
  have hz2 : (![0, 0] : Fin 2 → ℕ) = fun _ => 0 := by funext a; fin_cases a <;> rfl
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2; obtain rfl := harg11.eq_unread hfs3
  by_cases hc0 : cond1_0 i <;> by_cases hc2 : cond1_2 i
  · exact absurd hc2 (hx hc0)
  all_goals
    first | rw [if_pos hc0] | rw [if_neg hc0]
    first | rw [if_pos hc2] | rw [if_neg hc2]
    simp only [cc1__tail_kernel_eq_skeleton]; unfold cc1__tail_kernel_skel
    simp only [k1_part1_eq_skeleton]
    sl_exec (disch := first | exact hc0 | exact hc2)
    sl_step
    iapply Hk
    isplitl [H0]; rotate_left; isplitl [H1]; rotate_left; isplitl [H2]; rotate_left; isplitl [H3]; rotate_left; isplitl [H4]; rotate_left
    isplitl [H5]; rotate_left; isplitl [HS0]; rotate_left; isplitl [HS1]; rotate_left; isplitl [HS2]; rotate_left
    all_goals
      iexists _; isplitr; swap
      · first | iexact H0 | iexact H1 | iexact H2 | iexact H3 | iexact H4 | iexact H5 | iexact HS0 | iexact HS1 | iexact HS2 | iexact HS3
      ipureintro
    rotate_left
    iterate 5 exact Memref.IsWhole.read_unread _ _
    on_goal 2 => try (have : ¬cond1_0 i := hc0; exact Memref.IsWhole.read_unread _ _)
    try (have : ¬cond1_2 i := hc2; exact hf5)
    all_goals
      sl_unfold_words
      first
      | refine (View.read_writes_eq_canon _ _ _ (fun y => ⟨_, List.Mem.head _, by exact View.mem_set_unit_zero (S := S512x1) hz2 inb_S512x1_S512x1_0_0 y⟩)).trans ((View.canon_cons_unit_zero (S := S512x1) hz2 inb_S512x1_S512x1_0_0 _ _).trans ?_)
      | refine (View.read_writes_eq_canon _ _ _ (fun y => ⟨_, List.Mem.head _, by exact View.mem_set_unit_zero (S := S512x512) hz2 inb_S512x512_S512x512_0_0 y⟩)).trans ((View.canon_cons_unit_zero (S := S512x512) hz2 inb_S512x512_S512x512_0_0 _ _).trans ?_)
      simp only [View.readAt_eq_ld, harg2.read_unread, harg3.read_unread, harg4.read_unread, harg5.read_unread, harg6.read_unread, harg8.read_unread, harg9.read_unread, harg10.read_unread, harg11.read_unread, View.ld_unit_zero (S := S512x1) hz2, View.ld_unit_zero (S := S512x512) hz2, View.ld_unit_zero (S := S1000x512) hz2, View.ld_unit_zero (S := S512x2048) hz2, View.readCov_unit_zero (S := S512x1) _ hz2, View.readCov_unit_zero (S := S512x512) _ hz2]
      try rfl

end Cert.KernelIdeal.Reg

end
-- ==== Proof.KI.Reg1.lean ====
import proofs.«416445_j13245679141252_2_alg».proof.Proof.KI.Reg1.Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare (xb1 V c t)
    ∗ owns (c : Thread nD τ) (ms1_1 t) fullShare (w1b1 V c t)
    ∗ owns (c : Thread nD τ) (ms1_2 t) fullShare (w2b1 V c t)
    ∗ owns (c : Thread nD τ) (ms1_3 t) fullShare (tgb1 V c t)
    ∗ owns (c : Thread nD τ) (ms1_4 t) fullShare (cb1 V c t)
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1.eq_2, PhiS1_castSucc V c t]
  rcases (by omega : (t.val % 9 = 0 ∧ ¬t.val % 9 = 8 ∧ t.val = 0) ∨ (t.val % 9 = 0 ∧ ¬t.val % 9 = 8 ∧ ¬t.val = 0) ∨ (¬t.val % 9 = 0 ∧ t.val % 9 = 8 ∧ ¬t.val = 0) ∨ (¬t.val % 9 = 0 ∧ ¬t.val % 9 = 8 ∧ ¬t.val = 0)) with
    ⟨h0, h2, hz⟩ | ⟨h0, h2, hz⟩ | ⟨h0, h2, hz⟩ | ⟨h0, h2, hz⟩
  all_goals
    first | have hc0 := (hcond1_0 t).mpr h0 | have hc0 := mt (hcond1_0 t).mp h0
    first | have hc2 := (hcond1_2 t).mpr h2 | have hc2 := mt (hcond1_2 t).mp h2
    first
    | rw [Dat.leavesExact_idle (dat1 V c) 5 t (idleAt1_5 t hc2) (noFlush1_5 t hc2)]
    | rw [show (dat1 V c).leavesExact 5 t = owns (c : Thread nD τ) (ms1_5 t) fullShare ((dat1 V c).after 5 t) from by
        unfold Dat.leavesExact; rw [liveAt1_5 t hc2], after1_5, oAt1_eq]
    first | rw [sAt1_A V c t h0] | rw [sAt1_BC V c t h0]
    first | rw [PhiS1_zero V c _ _ hz, PhiA1_eq] | rw [PhiS1_pos V c _ _ hz, PhiS1.eq_2]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩⟩
    first
    | icases HS0 with ⟨%e0, HS0⟩; icases HS1 with ⟨%e1, HS1⟩; icases HS2 with ⟨%e2, HS2⟩; icases HS3 with ⟨%e3, HS3⟩
      iapply (run1 (i := grid1.coords t) (fun h0 h2 => by have := (hcond1_0 t).mp h0; have := (hcond1_2 t).mp h2; omega) (xb1 V c t) (w1b1 V c t) (w2b1 V c t) (tgb1 V c t) (cb1 V c t) _ (e0, e1, e2, e3) Set.univ _)
    | iapply (run1 (i := grid1.coords t) (fun h0 h2 => by have := (hcond1_0 t).mp h0; have := (hcond1_2 t).mp h2; omega) (xb1 V c t) (w1b1 V c t) (w2b1 V c t) (tgb1 V c t) (cb1 V c t) _ (sAt1 V c (t.val - 1) (Nat.lt_of_le_of_lt (Nat.sub_le _ _) t.isLt)) Set.univ _)
    first | rw [if_pos hc0] | rw [if_neg hc0]
    first | rw [if_pos hc2] | rw [if_neg hc2]
    isplitl [H0]; rotate_left; isplitl [H1]; rotate_left; isplitl [H2]; rotate_left; isplitl [H3]; rotate_left; isplitl [H4]; rotate_left
    isplitl [H5]; rotate_left; isplitl [HS0]; rotate_left; isplitl [HS1]; rotate_left; isplitl [HS2]; rotate_left; isplitl [HS3]; rotate_left
    all_goals try first | iexact H0 | iexact H1 | iexact H2 | iexact H3 | iexact H4 | iexact H5 | iexact HS0 | iexact HS1 | iexact HS2 | iexact HS3
    iintro ⟨H0, H1, H2, H3, H4, H5, HS0, HS1, HS2, HS3⟩
    isplitl [HS0 HS1 HS2 HS3 Hr Hg]
    · isplitl [HS0 HS1 HS2 HS3 Hr]
      · isplitl [HS0 HS1 HS2 HS3]
        · isplitl [HS0]; · iexact HS0
          isplitl [HS1]; · iexact HS1
          isplitl [HS2]; · iexact HS2
          iexact HS3
        iexact Hr
      iexact Hg
    isplitl [Ho]; · iexact Ho
    isplitl [H0]; · iexact H0
    isplitl [H1]; · iexact H1
    isplitl [H2]; · iexact H2
    isplitl [H3]; · iexact H3
    isplitl [H4]; · iexact H4
    first | iexact H5 | (iexists _; iexact H5)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiS1.eq_2, PhiA1_eq]
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

theorem hout1 (c : Dev nD) : (dat1 V c).Φ (Fin.last cfg1.N) ⊢ Pipeline.ΦA spec1 c :=
  Phi_out1 V c _ (by rw [Fin.val_last]; have : cfg1.N = 72 := N_1; omega)

end Cert.KernelIdeal.Reg

end
-- ==== Proof.KI.Reg2.Defs.lean ====
import proofs.«416445_j13245679141252_2_alg».proof.Proof.Gen.KernelIdeal.Launch
import proofs.«416445_j13245679141252_2_alg».proof.Proof.Gen.KernelIdeal.Skeleton
import proofs.«416445_j13245679141252_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

def w2blk (c : Dev nD) (t : Fin cfg2.N) : Vec Ideal S4096x128 .f32 :=
  win2_2.fill (grid2.coords t) (fun _ => (0 : EReal)) (iblk2 V c 2 t)

abbrev St2 : Type := Vec Ideal S512x128 .bf16 × Vec Ideal S512x1 .f32 × Vec Ideal S512x1 .f32 × Vec Ideal S512x1 .f32

def init2 (x : Vec Ideal S512x2048 .f32) (w1 : Vec Ideal S128x2048 .f32) : St2 :=
  (k2_pay3 x w1, k2_pay4 (F := Ideal), k2_pay5 (F := Ideal), k2_pay6 (F := Ideal))

def upd2 (i : grid2.Coords) (w2 : Vec Ideal S4096x128 .f32) (tg : Vec Ideal S512x1 .i32) (s : St2) : St2 :=
  (s.1, k2_pay11 i s.1 w2 s.2.1, k2_pay12 i s.1 w2 s.2.1 s.2.2.1, k2_pay1 (k2_pay7 s.1 w2) (k2_pay8 i) tg s.2.2.2)

def sAt2 (c : Dev nD) : (n : ℕ) → n < cfg2.N → St2
  | 0, hn => upd2 (grid2.coords ⟨0, hn⟩) (w2blk V c ⟨0, hn⟩) (iblk2 V c 3 ⟨0, hn⟩) (init2 (iblk2 V c 0 ⟨0, hn⟩) (iblk2 V c 1 ⟨0, hn⟩))
  | n + 1, hn =>
    if (n + 1) % 10 = 0 then
      upd2 (grid2.coords ⟨n + 1, hn⟩) (w2blk V c ⟨n + 1, hn⟩) (iblk2 V c 3 ⟨n + 1, hn⟩) (init2 (iblk2 V c 0 ⟨n + 1, hn⟩) (iblk2 V c 1 ⟨n + 1, hn⟩))
    else
      upd2 (grid2.coords ⟨n + 1, hn⟩) (w2blk V c ⟨n + 1, hn⟩) (iblk2 V c 3 ⟨n + 1, hn⟩) (sAt2 c n (Nat.lt_of_succ_lt hn))

def oAt2 (c : Dev nD) (n : ℕ) (hn : n < cfg2.N) : Vec Ideal S512x1 .f32 :=
  k2_pay2 (sAt2 V c n hn).2.1 (sAt2 V c n hn).2.2.1 (iblk2 V c 4 ⟨n, hn⟩) (sAt2 V c n hn).2.2.2

theorem sAt2_first (c : Dev nD) (t : Fin cfg2.N) (h : t.val % 10 = 0) :
    sAt2 V c t.val t.isLt = upd2 (grid2.coords t) (w2blk V c t) (iblk2 V c 3 t) (init2 (iblk2 V c 0 t) (iblk2 V c 1 t)) := by
  obtain ⟨n, hn⟩ := t
  cases n with
  | zero => rfl
  | succ n => exact if_pos h

theorem sAt2_next (c : Dev nD) (t : Fin cfg2.N) (h : ¬t.val % 10 = 0) :
    sAt2 V c t.val t.isLt = upd2 (grid2.coords t) (w2blk V c t) (iblk2 V c 3 t)
      (sAt2 V c (t.val - 1) (Nat.lt_of_le_of_lt (Nat.sub_le _ _) t.isLt)) := by
  obtain ⟨n, hn⟩ := t
  cases n with
  | zero => exact absurd (Nat.zero_mod _) h
  | succ n => exact if_neg h

theorem oAt2_eq (c : Dev nD) (t : Fin cfg2.N) :
    oAt2 V c t.val t.isLt = k2_pay2 (sAt2 V c t.val t.isLt).2.1 (sAt2 V c t.val t.isLt).2.2.1 (iblk2 V c 4 t) (sAt2 V c t.val t.isLt).2.2.2 := rfl

abbrev scM2_0 : Memref sig .tc .vmem S512x128 .bf16 := Memref.whole cc2_scratch0
abbrev scM2_1 : Memref sig .tc .vmem S512x1 .f32 := Memref.whole cc2_scratch1
abbrev scM2_2 : Memref sig .tc .vmem S512x1 .f32 := Memref.whole cc2_scratch2
abbrev scM2_3 : Memref sig .tc .vmem S512x1 .f32 := Memref.whole cc2_scratch3

abbrev rest2 (c : Dev nD) : sProp 𝕄 :=
  Pipeline.scopedRestBut (Ix := Unit) (Name := ℕ) (U := UR sig nD τ) (Lvl := ℕ) (Val := Elt Ideal) spec2 c [cc2_scratch0, cc2_scratch1, cc2_scratch2, cc2_scratch3]

/-- The four scratch buffers at a state, with the rest of what the invariant keeps. -/
abbrev held2 (c : Dev nD) (s : St2) : sProp 𝕄 :=
  iprop(owns (c : Thread nD τ) scM2_0 fullShare s.1 ∗ owns (c : Thread nD τ) scM2_1 fullShare s.2.1
    ∗ owns (c : Thread nD τ) scM2_2 fullShare s.2.2.1 ∗ owns (c : Thread nD τ) scM2_3 fullShare s.2.2.2
    ∗ rest2 c ∗ (∃ r, prngReg c r))

def PhiS2 (c : Dev nD) : (n : ℕ) → n ≤ cfg2.N → sProp 𝕄
  | 0, _ => Pipeline.ΦA spec2 c
  | n + 1, hn => held2 c (sAt2 V c n hn)

theorem PhiS2_succ (c : Dev nD) (n : ℕ) (hn : n < cfg2.N) : PhiS2 V c (n + 1) hn = held2 c (sAt2 V c n hn) := rfl

theorem PhiS2_pos (c : Dev nD) (n : ℕ) (h : n ≤ cfg2.N) (hz : n ≠ 0) :
    PhiS2 V c n h = held2 c (sAt2 V c (n - 1) (by omega)) := by
  cases n with
  | zero => exact absurd rfl hz
  | succ n => rfl

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)
          ∗ (∃ d, owns (c : Thread nD τ) scM2_2 fullShare d) ∗ (∃ d, owns (c : Thread nD τ) scM2_3 fullShare d)) ∗ rest2 c) ∗ (∃ r, prngReg c r)) := by
  unfold Pipeline.ΦA; rw [scopedRest2_split]; simp only [scM2_0, scM2_1, scM2_2, scM2_3, owns_whole]; try rfl

def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => w2blk V c t
    | ⟨3, _⟩ => iblk2 V c 3 t
    | ⟨4, _⟩ => iblk2 V c 4 t
    | ⟨5, _⟩ => oAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = oAt2 V c t.val t.isLt := by dsimp only [dat2]

end Cert.KernelIdeal.Reg

end
-- ==== Proof.KI.Reg2.Runs.lean ====
import proofs.«416445_j13245679141252_2_alg».proof.Proof.KI.Reg2.Defs
import proofs.«416445_j13245679141252_2_alg».proof.Proof.Gen.KernelIdeal.Skeleton
import proofs.«416445_j13245679141252_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev cond2_0 (i : grid2.Coords) : Prop :=
  (Scalar.cmpi .ne (Scalar.extui (Scalar.cmpi .eq (BitVec.ofNat 32 (i 1).val) 0#32)) 0#32) = 1#1
abbrev cond2_1 (i : grid2.Coords) : Prop := k2_cond2 i = 1#1

theorem hz2 : (![0, 0] : Fin 2 → Nat) = fun _ => 0 := funext fun a => by fin_cases a <;> rfl

theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

theorem load_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

variable (c : Dev nD) (E : Set ℕ) (i : grid2.Coords)
  {a0 : Memref sig .tc .vmem S512x2048 .f32} {h0 : a0.IsWhole} {a1 : Memref sig .tc .vmem S128x2048 .f32} {h1 : a1.IsWhole}
  {a2 : Memref sig .tc .vmem S4096x128 .f32} {h2 : a2.IsWhole} {a3 : Memref sig .tc .vmem S512x1 .i32} {h3 : a3.IsWhole}
  {a4 a5 s1 s2 s3 : Memref sig .tc .vmem S512x1 .f32} {h4 : a4.IsWhole} {h5 : a5.IsWhole}
  {s0 : Memref sig .tc .vmem S512x128 .bf16} {hs0 : s0.IsWhole} {hs1 : s1.IsWhole} {hs2 : s2.IsWhole} {hs3 : s3.IsWhole}
  (x0 : Vec Ideal S512x2048 .f32) (x1 : Vec Ideal S128x2048 .f32) (x2 : Vec Ideal S4096x128 .f32) (x3 : Vec Ideal S512x1 .i32)
  (x4 d5 : Vec Ideal S512x1 .f32) (yh : Vec Ideal S512x128 .bf16) (ym yl yg : Vec Ideal S512x1 .f32)

/-- What a class tile starts from: the reset value at a row block's first tile, else what it finds. -/
def from2 {α : Type} (r y : α) : α := if cond2_0 i then r else y

/-- The scratch state a class tile leaves. -/
def next2 : St2 := upd2 i x2 x3 (from2 i (init2 x0 x1) (yh, ym, yl, yg))

/-- The body at any class tile: the inputs stay, the scratch moves to next2, and a row block's last tile stores the output. -/
theorem run2 (hne : ¬(cond2_0 i ∧ cond2_1 i)) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare d5
        ∗ owns (c : Thread nD τ) s0 fullShare yh ∗ owns (c : Thread nD τ) s1 fullShare ym
        ∗ owns (c : Thread nD τ) s2 fullShare yl ∗ owns (c : Thread nD τ) s3 fullShare yg
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (if cond2_1 i then k2_pay2 (next2 i x0 x1 x2 x3 yh ym yl yg).2.1 (next2 i x0 x1 x2 x3 yh ym yl yg).2.2.1 x4 (next2 i x0 x1 x2 x3 yh ym yl yg).2.2.2 else d5)
            ∗ owns (c : Thread nD τ) s0 fullShare (next2 i x0 x1 x2 x3 yh ym yl yg).1 ∗ owns (c : Thread nD τ) s1 fullShare (next2 i x0 x1 x2 x3 yh ym yl yg).2.1
            ∗ owns (c : Thread nD τ) s2 fullShare (next2 i x0 x1 x2 x3 yh ym yl yg).2.2.1 ∗ owns (c : Thread nD τ) s3 fullShare (next2 i x0 x1 x2 x3 yh ym yl yg).2.2.2) -∗ K ⟨⟩))
      ⊢ wp frame (wpE (defs₀ (F := Ideal)) Variants.none c none) E (cc2__tail_kernel i a0 h0 a1 h1 a2 h2 a3 h3 a4 h4 a5 h5 s0 hs0 s1 hs1 s2 hs2 s3 hs3) K := by
  unfold next2 from2
  by_cases hc0 : cond2_0 i <;> by_cases hc1 : cond2_1 i
  · exact absurd ⟨hc0, hc1⟩ hne
  all_goals
    first | rw [if_pos hc0] | rw [if_neg hc0]
    first | rw [if_pos hc1] | rw [if_neg hc1]
    dsimp only [upd2, init2]
    simp only [cc2__tail_kernel_eq_skeleton]; unfold cc2__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, S0⟩, ⟨%g1, %hg1, S1⟩, ⟨%g2, %hg2, S2⟩, ⟨%g3, %hg3, S3⟩, Hk⟩
    subst hf0 hf1 hf2 hf3 hf4 hf5 hg0 hg1 hg2 hg3
    sl_exec (disch := first | exact hc0 | exact hc1)
    sl_step
    iapply Hk
    isplitl [H0]; swap; isplitl [H1]; swap; isplitl [H2]; swap; isplitl [H3]; swap; isplitl [H4]; swap
    isplitl [H5]; swap; isplitl [S0]; swap; isplitl [S1]; swap; isplitl [S2]; swap
    all_goals
      iexists _; isplitr; swap; · iassumption
      ipureintro
      first
      | sl_unfold_run_names
        first | rw [read_store_whole (S := S512x1) _ _ hz2] | rw [read_store_whole (S := S512x128) _ _ hz2]
        simp only [View.readCov_unit_zero (S := S512x1) _ hz2, View.readCov_unit_zero (S := S512x128) _ hz2, load_whole (S := S512x128) _ _ hz2, load_whole (S := S4096x128) _ _ hz2, load_whole (S := S512x1) _ _ hz2, load_whole (S := S512x2048) _ _ hz2, load_whole (S := S128x2048) _ _ hz2]
      | rfl

end Cert.KernelIdeal.Reg

end
-- ==== Proof.KI.Reg2.Pad.lean ====
import proofs.«416445_j13245679141252_2_alg».proof.Proof.Gen.KernelIdeal.Launch
import proofs.«416445_j13245679141252_2_alg».proof.Proof.Gen.KernelIdeal.Skeleton
import proofs.«416445_j13245679141252_2_alg».proof.Proof.Gen.KernelIdeal.Points
import Idealize.ShloMosaic.PureOps.Ideal.Laws
import Idealize.ShloMosaic.Lib.ValueIdx
import Idealize.ShloMosaic.Lib.Affine

noncomputable section

namespace Cert.KernelIdeal.Reg

open Cert.KernelIdeal Cert.KernelIdeal.Gen
open Idealize.ShloMosaic Idealize.ShloMosaic.TcCoe Idealize.ShloMosaic.ValueIdx
open Idealize.SL.Sem

variable (i : grid2.Coords) (h : Vec Ideal S512x128 .bf16) (w w' : Vec Ideal S4096x128 .f32)

theorem colWord (n c : ℕ) (hn : n < 10) (hc : c < 4096) :
    IntOp.addi (Scalar.muli (BitVec.ofNat 32 n) 4096#32) (BitVec.ofNat 32 (0 * 4096 + c)) = BitVec.ofNat 32 (n * 4096 + c) := by
  apply BitVec.eq_of_toNat_eq
  simp only [IntOp.addi, Scalar.muli, IntOp.muli, BitVec.toNat_add, BitVec.toNat_mul, BitVec.toNat_ofNat]
  omega

theorem pay8_apply (idx : S512x4096.Idx) :
    k2_pay8 i idx = BitVec.ofNat 32 ((i 1).val * 4096 + (idx 1).val) :=
  colWord _ _ (i 1).isLt (idx 1).isLt

theorem pay8_toInt (idx : S512x4096.Idx) :
    (k2_pay8 i idx).toInt = ((i 1).val * 4096 + (idx 1).val : ℕ) := by
  have h1 : (i 1).val < 10 := (i 1).isLt
  have h2 : (idx 1).val < 4096 := (idx 1).isLt
  rw [pay8_apply, BitVec.toInt_eq_toNat_of_lt (by rw [BitVec.toNat_ofNat]; omega), BitVec.toNat_ofNat]
  omega

theorem mask_iff (idx : S512x4096.Idx) :
    cmpi .slt (k2_pay8 i) (broadcast S512x4096 40257#32) idx = 1#1 ↔ (i 1).val * 4096 + (idx 1).val < 40257 := by
  show IntOp.cmpi .slt (k2_pay8 i idx) 40257#32 = 1#1 ↔ _
  rw [IntOp.cmpi_slt, pay8_toInt, show (40257#32 : BitVec 32).toInt = 40257 from by decide]
  omega

theorem pay7_apply (idx : S512x4096.Idx) :
    k2_pay7 h w idx = ∑ k : dot_S512x128_S4096x128_S512x4096_1_1_0_0_n_n.contr.Idx,
      h (dot_S512x128_S4096x128_S512x4096_1_1_0_0_n_n.lhsIdx idx k) * w (dot_S512x128_S4096x128_S512x4096_1_1_0_0_n_n.rhsIdx idx k) := by
  unfold k2_pay7
  simp only [matmul]
  rw [Ideal.matmul_constant_zero_apply]
  rfl

theorem rhsIdx_row (idx : S512x4096.Idx) (k : dot_S512x128_S4096x128_S512x4096_1_1_0_0_n_n.contr.Idx) :
    ((dot_S512x128_S4096x128_S512x4096_1_1_0_0_n_n.rhsIdx idx k) 0).val = (idx 1).val := rfl

/-- Two weight tiles agree on the rows of class tile i that lie inside the array. -/
def Agree2 : Prop :=
  ∀ j : S4096x128.Idx, (i 1).val * 4096 + (j 0).val < 40257 → w j = w' j

theorem pay7_congr_at (hw : Agree2 i w w') (idx : S512x4096.Idx) (hin : (i 1).val * 4096 + (idx 1).val < 40257) :
    k2_pay7 h w idx = k2_pay7 h w' idx := by
  rw [pay7_apply, pay7_apply]
  exact Finset.sum_congr rfl fun k _ => by rw [hw _ (by rw [rhsIdx_row]; exact hin)]

theorem select_congr_of {s : Shape} {α : Type} (c : IVec s 1) (a a' b : s.Idx → α) (h : ∀ idx, c idx = 1#1 → a idx = a' idx) :
    select c a b = select c a' b := by
  funext idx
  rw [select_apply, select_apply]
  unfold Scalar.select
  by_cases hc : c idx = 1
  · rw [if_pos hc, if_pos hc, h idx hc]
  · rw [if_neg hc, if_neg hc]

theorem pay9_congr (hw : Agree2 i w w') :
    k2_pay9 i h w = k2_pay9 i h w' := by
  unfold k2_pay9
  exact select_congr_of _ _ _ _ fun idx hc => pay7_congr_at i h w w' hw idx ((mask_iff i idx).mp hc)

theorem toInt_minsi_le (a y : BitVec 32) : (IntOp.minsi a y).toInt ≤ a.toInt := by
  unfold IntOp.minsi
  split
  · exact le_rfl
  · next hn => rw [BitVec.slt_iff_toInt_lt] at hn; omega

theorem pay1_congr (tg : Vec Ideal S512x1 .i32) (g : Vec Ideal S512x1 .f32) (hw : Agree2 i w w') :
    k2_pay1 (k2_pay7 h w) (k2_pay8 i) tg g = k2_pay1 (k2_pay7 h w') (k2_pay8 i) tg g := by
  unfold k2_pay1
  dsimp only
  rw [select_congr_of _ (k2_pay7 h w) (k2_pay7 h w') _ fun idx hc => pay7_congr_at i h w w' hw idx (by
    have e := IntOp.cmpi_eq.mp hc
    have hle : (k2_pay8 i idx).toInt ≤ 40256 := by
      rw [e]
      refine le_trans (toInt_minsi_le _ _) ?_
      show (40256#32 : BitVec 32).toInt ≤ 40256
      decide
    rw [pay8_toInt] at hle
    omega)]

end Cert.KernelIdeal.Reg

end
-- ==== Proof.KI.Reg2.lean ====
import proofs.«416445_j13245679141252_2_alg».proof.Proof.KI.Reg2.Defs
import proofs.«416445_j13245679141252_2_alg».proof.Proof.KI.Reg2.Runs
import proofs.«416445_j13245679141252_2_alg».proof.Proof.KI.Reg2.Pad

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

theorem hcoord2 : ∀ t : Fin cfg2.N, ((grid2.coords t) 1).val = t.val % 10 :=
  (by decide +kernel : ∀ t : Fin grid2.N, ((grid2.coords t) 1).val = t.val % 10)
theorem hcond2_0 : ∀ t : Fin cfg2.N, cond2_0 (grid2.coords t) ↔ t.val % 10 = 0 :=
  (by decide +kernel : ∀ t : Fin grid2.N, cond2_0 (grid2.coords t) ↔ t.val % 10 = 0)
theorem hcond2_1 : ∀ t : Fin cfg2.N, cond2_1 (grid2.coords t) ↔ t.val % 10 = 9 :=
  (by decide +kernel : ∀ t : Fin grid2.N, cond2_1 (grid2.coords t) ↔ t.val % 10 = 9)
theorem idleAt2_5 : ∀ t : Fin cfg2.N, ¬t.val % 10 = 9 → cfg2.idle 5 (grid2.coords t) = true :=
  (by decide +kernel : ∀ t : Fin grid2.N, ¬t.val % 10 = 9 → idle2 5 (grid2.coords t) = true)
theorem liveAt2_5 : ∀ t : Fin cfg2.N, t.val % 10 = 9 → cfg2.idle 5 (grid2.coords t) = false :=
  (by decide +kernel : ∀ t : Fin grid2.N, t.val % 10 = 9 → idle2 5 (grid2.coords t) = false)
theorem noFlush2_5 (t : Fin cfg2.N) (h : ¬t.val % 10 = 9) : (cfg2.win 5).flush t = false :=
  Bool.eq_false_iff.mpr fun hf => h ((flush2_5 t).mp hf)
theorem hxsize2 : ∀ t : Fin cfg2.N, win2_2.xsize (grid2.coords t) 0 = min 4096 (40257 - (t.val % 10) * 4096)
    ∧ win2_2.xsize (grid2.coords t) 1 = 128 :=
  (by decide +kernel : ∀ t : Fin grid2.N, win2_2.xsize (grid2.coords t) 0 = min 4096 (40257 - (t.val % 10) * 4096)
    ∧ win2_2.xsize (grid2.coords t) 1 = 128)

/-- On the rows inside the array the zero-filled tile is the array's block. -/
theorem w2_agree (c : Dev nD) (t : Fin cfg2.N) (d : S4096x128.Idx → Elt Ideal .f32) :
    Agree2 (grid2.coords t) (win2_2.fill (grid2.coords t) d (iblk2 V c 2 t)) (w2blk V c t) := by
  intro j hj
  have hm : win2_2.moved (grid2.coords t) j = true := (win2_2.moved_iff _ j).mpr fun a => by
    have h0 := (j 0).isLt; have h1 := (j 1).isLt
    rw [hcoord2 t] at hj
    match a with
    | ⟨0, _⟩ =>
      show (j 0).val < win2_2.xsize (grid2.coords t) 0
      rw [(hxsize2 t).1]; have : (j 0).val < 4096 := h0; omega
    | ⟨1, _⟩ =>
      show (j 1).val < win2_2.xsize (grid2.coords t) 1
      rw [(hxsize2 t).2]; exact h1
  unfold w2blk Window.fill
  rw [dif_pos hm, dif_pos hm]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_2 (c : Dev nD) (t : Fin cfg2.N) (d) :
    (dat2 V c).before 2 t d = win2_2.fill (grid2.coords t) d (iblk2 V c 2 t) :=
  (dat2 V c).before_fetched 2 t (fetch2_2 t) d

theorem leaves2_2 (c : Dev nD) (t : Fin cfg2.N) :
    (dat2 V c).leaves 2 t = iprop(∃ d, owns (c : Thread nD τ) (st2_2 t) fullShare (win2_2.fill (grid2.coords t) d (iblk2 V c 2 t))) := by
  rw [show (dat2 V c).leaves 2 t = iprop(∃ d, owns (c : Thread nD τ) (st2_2 t) fullShare
      (win2_2.fill (grid2.coords t) d (win2_2.cut (grid2.coords t) (w2blk V c t)))) from rfl]
  unfold w2blk; rw [win2_2.cut_fill]
theorem leaves2_5_live (c : Dev nD) (t : Fin cfg2.N) (h9 : t.val % 10 = 9) :
    (dat2 V c).leaves 5 t = owns (c : Thread nD τ) (st2_5 t) fullShare (oAt2 V c t.val t.isLt) := by
  unfold Dat.leaves; rw [liveAt2_5 t h9, after2_5]

/-- One class tile's update reads only the weight rows inside the array. -/
theorem upd2_congr (i : grid2.Coords) (w w' : Vec Ideal S4096x128 .f32) (tg : Vec Ideal S512x1 .i32) (s : St2)
    (hw : Agree2 i w w') : upd2 i w tg s = upd2 i w' tg s := by
  unfold upd2 k2_pay11 k2_pay12 k2_pay10
  rw [pay9_congr i _ w w' hw, pay1_congr i _ w w' _ _ hw]

/-- Whatever the scratch buffers hold, the invariant gives the class's own back. -/
theorem PhiS2_out (c : Dev nD) (n : ℕ) (h : n ≤ cfg2.N) : PhiS2 V c n h ⊢ Pipeline.ΦA spec2 c := by
  cases n with
  | zero => exact Idealize.SL.BI.Entails.refl _
  | succ n =>
    rw [PhiS2_succ V c n h, PhiA2_eq]
    iintro ⟨S0, S1, S2, S3, Hr, Hg⟩
    iframe Hr Hg
    isplitl [S0]; · iexists _; iexact S0
    isplitl [S1]; · iexists _; iexact S1
    isplitl [S2]; · iexists _; iexact S2
    iexists _; iexact S3

/-- The body at any point: the invariant hands over the scratch state (anything at a row block's first tile), the one run moves it, and the rows past the array's end do not matter. -/
theorem sound_body2 (c : Dev nD) (t : Fin cfg2.N) :
    iprop(PhiS2 V c t.val (Nat.le_of_lt t.isLt) ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d)))
    ⊢ wp frame (wpE (defs₀ (F := Ideal)) Variants.none c none) Set.univ (bodyAt2 t) (fun _ => iprop(PhiS2 V c (t.val + 1) t.isLt ∗ (dat2 V c).owesAt () t.castSucc
      ∗ owns (c : Thread nD τ) (st2_0 t) fullShare (iblk2 V c 0 t) ∗ owns (c : Thread nD τ) (st2_1 t) fullShare (iblk2 V c 1 t)
      ∗ (dat2 V c).leaves 2 t
      ∗ owns (c : Thread nD τ) (st2_3 t) fullShare (iblk2 V c 3 t) ∗ owns (c : Thread nD τ) (st2_4 t) fullShare (iblk2 V c 4 t)
      ∗ (dat2 V c).leaves 5 t)) := by
  unfold bodyAt2
  simp only [before2_0, before2_1, before2_2, before2_3, before2_4]
  rw [PhiS2_succ, leaves2_2]
  iintro ⟨HΦ, Ho, ⟨%d0, H0⟩, ⟨%d1, H1⟩, ⟨%d2, H2⟩, ⟨%d3, H3⟩, ⟨%d4, H4⟩, ⟨%d5, H5⟩⟩
  have hw := w2_agree V c t d2
  rcases (by omega : (t.val % 10 = 0 ∧ ¬t.val % 10 = 9) ∨ (¬t.val % 10 = 0 ∧ t.val % 10 = 9) ∨ (¬t.val % 10 = 0 ∧ ¬t.val % 10 = 9))
    with ⟨h0, h9⟩ | ⟨h0, h9⟩ | ⟨h0, h9⟩
  on_goal 1 =>
    have hc0 := (hcond2_0 t).mpr h0
    rw [Dat.leaves_idle (dat2 V c) 5 t (idleAt2_5 t h9) (noFlush2_5 t h9), sAt2_first V c t h0, ← upd2_congr (grid2.coords t) _ (w2blk V c t) _ _ hw]
    icases ((PhiS2_out V c _ _).trans (Entails.of_eq (PhiA2_eq c))) $$ HΦ with ⟨⟨⟨⟨%e0, S0⟩, ⟨%e1, S1⟩, ⟨%e2, S2⟩, ⟨%e3, S3⟩⟩, Hr⟩, Hg⟩
  on_goal 2 =>
    have hc0 := mt (hcond2_0 t).mp h0
    rw [leaves2_5_live V c t h9, oAt2_eq V c t, sAt2_next V c t h0, ← upd2_congr (grid2.coords t) _ (w2blk V c t) _ _ hw]
    icases (Entails.of_eq (PhiS2_pos V c _ _ fun h => h0 (by rw [h]))) $$ HΦ with ⟨S0, S1, S2, S3, Hr, Hg⟩
  on_goal 3 =>
    have hc0 := mt (hcond2_0 t).mp h0
    rw [Dat.leaves_idle (dat2 V c) 5 t (idleAt2_5 t h9) (noFlush2_5 t h9), sAt2_next V c t h0, ← upd2_congr (grid2.coords t) _ (w2blk V c t) _ _ hw]
    icases (Entails.of_eq (PhiS2_pos V c _ _ fun h => h0 (by rw [h]))) $$ HΦ with ⟨S0, S1, S2, S3, Hr, Hg⟩
  all_goals
    iapply (run2 c Set.univ (grid2.coords t) _ _ _ _ _ _ _ _ _ _ (fun h => by have := (hcond2_0 t).mp h.1; have := (hcond2_1 t).mp h.2; omega) _)
    iframe H0 H1 H2 H3 H4 H5 S0 S1 S2 S3
    iintro ⟨H0, H1, H2, H3, H4, H5, S0, S1, S2, S3⟩
    dsimp only [held2, next2, from2]
    first | rw [if_pos hc0] | rw [if_neg hc0]
    first | rw [if_pos ((hcond2_1 t).mpr h9)] | rw [if_neg (mt (hcond2_1 t).mp h9)]
    dsimp only [upd2, init2]
    iframe S0 S1 S2 S3 Hr Hg Ho H0 H1 H3 H4
    isplitl [H2]; · iexists d2; iexact H2
    first | iexact H5 | (iexists d5; iexact H5)

theorem body_obligation2 (c : Dev nD) : BodyObligationLoose (dat2 V c) (defs₀ (F := Ideal)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem hout2 (c : Dev nD) : (dat2 V c).Φ (Fin.last cfg2.N) ⊢ Pipeline.ΦA spec2 c := PhiS2_out V c cfg2.N le_rfl

end Cert.KernelIdeal.Reg

end
-- ==== Proof.KI.Run.lean ====
import proofs.«416445_j13245679141252_2_alg».proof.Proof.KI.Reg0
import proofs.«416445_j13245679141252_2_alg».proof.Proof.KI.Reg1
import proofs.«416445_j13245679141252_2_alg».proof.Proof.KI.Reg2
import proofs.«416445_j13245679141252_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev W0 : Dev nD → Valuation τ sig (Elt Ideal) := fun c b => m (c, b)

abbrev W1 : Dev nD → Valuation τ sig (Elt Ideal) := fun c => StableHlo.after hostOps0 (W0 m c)
abbrev V1 : (c : Dev nD) → (b : Ref sig .tc) → Buf (Elt Ideal) ((c : Thread nD τ).loc b) := fun c b => W1 m c b

def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt Ideal) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt Ideal) := fun c => StableHlo.after hostOps1 (W2 m c)
abbrev V3 : (c : Dev nD) → (b : Ref sig .tc) → Buf (Elt Ideal) ((c : Thread nD τ).loc b) := fun c b => W3 m c b

def W4 (c : Dev nD) : Valuation τ sig (Elt Ideal) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev V4 : (c : Dev nD) → (b : Ref sig .tc) → Buf (Elt Ideal) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

def W5 (c : Dev nD) : Valuation τ sig (Elt Ideal) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

abbrev V5 : (c : Dev nD) → (b : Ref sig .tc) → Buf (Elt Ideal) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

abbrev W6 : Dev nD → Valuation τ sig (Elt Ideal) := fun c => StableHlo.after hostOps3 (W5 m c)
abbrev W7 : Dev nD → Valuation τ sig (Elt Ideal) := fun c => StableHlo.after hostOps3_1 (W6 m c)
abbrev W8 : Dev nD → Valuation τ sig (Elt Ideal) := fun c => StableHlo.after hostOps3_2 (W7 m c)
abbrev W9 : Dev nD → Valuation τ sig (Elt Ideal) := fun c => StableHlo.after hostOps3_3 (W8 m c)

theorem withArrays_keep {gr W : Nat} (win : Fin W → Pipeline.WinSpec sig gr) (hinj : Function.Injective (Pipeline.arrRef win)) (c : Dev nD)
    (V : Valuation τ sig (Elt Ideal)) (A : (w : Fin W) → Buf (Elt Ideal) ((win w).arr.view.loc (c : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

/-- A region changes only its output array. -/
theorem W2_keep (c : Dev nD) (b : Ref sig .tc) (hb : ∀ w, Pipeline.arrRef spec0 w = b → (cfg0.win w).isOut = false) :
    W2 m c (Proc.devRef .tc b) = W1 m c (Proc.devRef .tc b) := by
  unfold W2
  exact withArrays_keep spec0 launch0.win.arr_inj c _ _ b fun w e => ((dat0 (V1 m) c).arrAt_in w (hb w e) _).trans (A_eq0 (V1 m) c w)
theorem W4_keep (c : Dev nD) (b : Ref sig .tc) (hb : ∀ w, Pipeline.arrRef spec1 w = b → (cfg1.win w).isOut = false) :
    W4 m c (Proc.devRef .tc b) = W3 m c (Proc.devRef .tc b) := by
  unfold W4
  exact withArrays_keep spec1 launch1.win.arr_inj c _ _ b fun w e => ((dat1 (V3 m) c).arrAt_in w (hb w e) _).trans (A_eq1 (V3 m) c w)
theorem W5_keep (c : Dev nD) (b : Ref sig .tc) (hb : ∀ w, Pipeline.arrRef spec2 w = b → (cfg2.win w).isOut = false) :
    W5 m c (Proc.devRef .tc b) = W4 m c (Proc.devRef .tc b) := by
  unfold W5
  exact withArrays_keep spec2 launch2.win.arr_inj c _ _ b fun w e => ((dat2 (V4 m) c).arrAt_in w (hb w e) _).trans (A_eq2 (V4 m) c w)

abbrev mainArgs : List (Ref sig .tc) := [main_arg0, main_arg1, main_arg2, main_arg3, main_arg4, main_arg5, main_arg6]

/-- No host operation writes an argument, and a region only reads one or passes it by. -/
theorem args_kept : ∀ b ∈ mainArgs, ¬ (Proc.devRef .tc b : DevRef τ sig).isScoped
    ∧ b ∉ hostOps0_W ∧ b ∉ hostOps1_W ∧ b ∉ hostOps3_W ∧ b ∉ hostOps3_1_W ∧ b ∉ hostOps3_2_W ∧ b ∉ hostOps3_3_W
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false) := by decide

section
variable (c : Dev nD) (b : Ref sig .tc) (hb : b ∈ mainArgs)
include hb

theorem V1_arg : V1 m c b = m ((c : Thread nD τ).loc b) :=
  StableHlo.after_of_writes_sub hostOps0 (W0 m c) hostOps0_writes (args_kept b hb).2.1

theorem V3_arg : V3 m c b = m ((c : Thread nD τ).loc b) := by
  obtain ⟨-, -, h1, -, -, -, -, k0, -⟩ := args_kept b hb
  exact (StableHlo.after_of_writes_sub hostOps1 _ hostOps1_writes h1).trans ((W2_keep m c b k0).trans (V1_arg m c b hb))

theorem V4_arg : V4 m c b = m ((c : Thread nD τ).loc b) :=
  (W4_keep m c b (args_kept b hb).2.2.2.2.2.2.2.2.1).trans (V3_arg m c b hb)

theorem W9_arg : W9 m c (Proc.devRef .tc b) = m ((c : Thread nD τ).loc b) := by
  obtain ⟨-, -, -, h3, h31, h32, h33, -, -, k2⟩ := args_kept b hb
  exact (StableHlo.after_of_writes_sub hostOps3_3 _ hostOps3_3_writes h33).trans <|
    (StableHlo.after_of_writes_sub hostOps3_2 _ hostOps3_2_writes h32).trans <|
    (StableHlo.after_of_writes_sub hostOps3_1 _ hostOps3_1_writes h31).trans <|
    (StableHlo.after_of_writes_sub hostOps3 _ hostOps3_writes h3).trans <|
    (W5_keep m c b k2).trans (V4_arg m c b hb)

end

def pdats : (p : Fin 3) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V3 m) c
  | ⟨2, _⟩ => fun c => dat2 (V4 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

/-- A final memory that holds every unscoped buffer at the fold's last stage holds the seven arguments as launched. -/
theorem args_end (c : Dev nD) {μ : (ℓ : Loc nD τ sig) → Buf (Elt Ideal) ℓ}
    (h : ∀ b ∈ Pipeline.ucRefs τ sig, μ (((c : Thread nD τ)).1, b) = W9 m c b) :
    μ ((c : Thread nD τ).loc main_arg0) = m ((c : Thread nD τ).loc main_arg0)
    ∧ μ ((c : Thread nD τ).loc main_arg1) = m ((c : Thread nD τ).loc main_arg1)
    ∧ μ ((c : Thread nD τ).loc main_arg2) = m ((c : Thread nD τ).loc main_arg2)
    ∧ μ ((c : Thread nD τ).loc main_arg3) = m ((c : Thread nD τ).loc main_arg3)
    ∧ μ ((c : Thread nD τ).loc main_arg4) = m ((c : Thread nD τ).loc main_arg4)
    ∧ μ ((c : Thread nD τ).loc main_arg5) = m ((c : Thread nD τ).loc main_arg5)
    ∧ μ ((c : Thread nD τ).loc main_arg6) = m ((c : Thread nD τ).loc main_arg6) :=
  have k := fun b hb => (h _ (mem_uc b (args_kept b hb).1)).trans (W9_arg m c b hb)
  ⟨k main_arg0 (by decide), k main_arg1 (by decide), k main_arg2 (by decide), k main_arg3 (by decide),
    k main_arg4 (by decide), k main_arg5 (by decide), k main_arg6 (by decide)⟩

set_option backward.isDefEq.respectTransparency.types false in
/-- A region over the thread state: every unscoped buffer goes from `Wi` to `Wo`. -/
def regOf (p : Fin 3) (la : Pipeline.LaunchFacts (nD := nD) (τ := τ) cfgs p) (Wi Wo : Dev nD → Valuation τ sig (Elt Ideal))
    (hbody : ∀ c, Pipeline.BodyObligationLoose (pdats m p c) defs₀ 𝒱₀ () Set.univ)
    (hq : ∀ c w, (pdats m p c).q w = fullShare) (howed : ∀ c t, (pdats m p c).owed t = 0)
    (hrec : ∀ c t, (pdats m p c).recorded t = Set.univ)
    (hΦ0 : ∀ c, Pipeline.ΦA (cfgs p).spec c ⊢ (pdats m p c).Φ 0)
    (hΦN : ∀ c, (pdats m p c).Φ (Fin.last (cfgs p).N) ⊢ Pipeline.ΦA (cfgs p).spec c)
    (hA : ∀ c w, (pdats m p c).A w = Wi c (Proc.devRef .tc (Pipeline.arrRef (cfgs p).spec w)))
    (hF : ∀ c w, (pdats m p c).arrAt w (cfgs p).N = Wo c (Proc.devRef .tc (Pipeline.arrRef (cfgs p).spec w)))
    (hrest : ∀ c b, b ∉ Finset.univ.image (Pipeline.arrRef (cfgs p).spec) → Wo c (Proc.devRef .tc b) = Wi c (Proc.devRef .tc b)) :
    Pipeline.RegionSeg (pcfgs (F := Ideal)) adm (pdats m) () defs₀ 𝒱₀ L lv p where
  win := la.win.to₀
  block_pos := la.block_pos
  stage_whole := la.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := Ideal)) adm (pdats m) la.win la.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hΦ0 c)
    unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := Ideal)) adm (Ix := Unit) (Name := ℕ) (U := UR sig nD τ) (Lvl := ℕ)
      la.win la.arr_whole c (pdats m) ((pdats m p c).share_full (hq c))
      (fun b => Wi c b) (fun b => Wo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := Ideal)) adm (pdats m) () defs₀ 𝒱₀ L lv 0 :=
  regOf m 0 launch0 (W1 m) (W2 m) (fun c => (body_obligation0 (V1 m) c).loose) (fun _ _ => rfl) (fun _ _ => rfl) (fun _ _ => rfl)
    (hin0 (V1 m)) (hout0 (V1 m)) (fun _ _ => rfl) (hF0 m) (hrest0 m)
def reg1 : Pipeline.RegionSeg (pcfgs (F := Ideal)) adm (pdats m) () defs₀ 𝒱₀ L lv 1 :=
  regOf m 1 launch1 (W3 m) (W4 m) (fun c => (body_obligation1 (V3 m) c).loose) (fun _ _ => rfl) (fun _ _ => rfl) (fun _ _ => rfl)
    (hin1 (V3 m)) (hout1 (V3 m)) (fun _ _ => rfl) (hF1 m) (hrest1 m)
def reg2 : Pipeline.RegionSeg (pcfgs (F := Ideal)) adm (pdats m) () defs₀ 𝒱₀ L lv 2 :=
  regOf m 2 launch2 (W4 m) (W5 m) (body_obligation2 (V4 m)) (fun _ _ => rfl) (fun _ _ => rfl) (fun _ _ => rfl)
    (hin2 (V4 m)) (hout2 (V4 m)) (fun _ _ => rfl) (hF2 m) (hrest2 m)

abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .host (hseg hostOps3_1 hostOps3_1_sub hostOps3_1_fresh (W6 m)),
    .host (hseg hostOps3_2 hostOps3_2_sub hostOps3_2_fresh (W7 m)),
    .host (hseg hostOps3_3 hostOps3_3_sub hostOps3_3_fresh (W8 m)) ]

theorem main_run (c : Dev nD) : main (F := Ideal) c = Pipeline.Seg.run (segs m) := (main_chain c).trans (by chain_rfl)

set_option backward.isDefEq.respectTransparency.types false in

theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps3_3 (W8 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Reg

end
-- ==== Proof.KI.Tail.lean ====
import proofs.«416445_j13245679141252_2_alg».proof.Proof.KI.Run
import Idealize.ShloMosaic.Lib.Pipeline.Value
import Idealize.ShloMosaic.Lib.ValueIdx

noncomputable section

namespace Cert.KernelIdeal.Val

open Cert.KernelIdeal Cert.KernelIdeal.Gen Cert.KernelIdeal.Reg Idealize.ShloMosaic Idealize.ShloMosaic.TcCoe Idealize.ShloMosaic.ValueIdx

variable (m : (ℓ : Loc nD τ sig) → Buf (Elt Ideal) ℓ)

private theorem rowMajor_col {n : ℕ} (r : Fin n) :
    ((⟨1, ![n]⟩ : Shape).rowMajor (ix1 r)).val = ((⟨2, ![n, 1]⟩ : Shape).rowMajor (ix2 r (0 : Fin 1))).val := by
  rw [Shape.rowMajor_val_one, Shape.rowMajor_val_two]
  show r.val = r.val * 1 + 0
  omega

private theorem slice_col {α : Type} (x : (⟨2, ![4096, 3]⟩ : Shape).Idx → α) (j : ℕ) (hj : j < 3)
    (h : (⟨2, ![4096, 3]⟩ : Shape).Slices ![0, j] (⟨2, ![4096, 1]⟩ : Shape)) (r : Fin 4096) :
    extractStridedSlice (⟨2, ![4096, 1]⟩ : Shape) ![0, j] x h (ix2 r (0 : Fin 1)) = x (ix2 r (⟨j, hj⟩ : Fin 3)) := by
  refine extractStridedSlice_apply _ _ _ _ (ix2 r (⟨j, hj⟩ : Fin 3)) fun a => ?_
  match a with
  | ⟨0, _⟩ => show r.val = 0 + r.val; omega
  | ⟨1, _⟩ => show j = j + 0; omega

private theorem select_if {α : Type} {w : BitVec 1} {b : Bool} {x x' y y' : α} (hw : w = BitVec.ofBool b) (hx : x = x')
    (hy : y = y') : Scalar.select w x y = if b then x' else y' := by
  subst hw hx hy
  cases b
  · exact select_zero _ _
  · exact select_one _ _

section Stretches
variable (F : Valuation τ sig (Elt Ideal))

private theorem s33_v15 : StableHlo.after hostOps3_3 F main_v15 = F main_v15 :=
  StableHlo.after_of_writes_sub hostOps3_3 _ hostOps3_3_writes (by decide)

private theorem s32_v15 (r : Fin 4096) : StableHlo.after hostOps3_2 F main_v15 (ix1 r)
    = Scalar.select (F main_v8 (ix1 r)) (F main_v9 (ix1 r))
        (F main_v14 (ix1 r)) := by
  after_results
  rfl

private theorem s31_v14 (r : Fin 4096) : StableHlo.after hostOps3_1 F main_v14 (ix1 r)
    = Scalar.select (F main_v11 (ix1 r)) (F main_v12 (ix1 r))
        (F main_v13 (ix1 r)) := by
  after_results
  rfl

private theorem s31_keep : StableHlo.after hostOps3_1 F main_v8 = F main_v8
    ∧ StableHlo.after hostOps3_1 F main_v9 = F main_v9 :=
  ⟨StableHlo.after_of_writes_sub hostOps3_1 _ hostOps3_1_writes (by decide),
    StableHlo.after_of_writes_sub hostOps3_1 _ hostOps3_1_writes (by decide)⟩

private theorem s3_cmp (r : Fin 4096) :
    StableHlo.after hostOps3 F main_v8 (ix1 r) = BitVec.ofBool ((F main_arg1 (ix1 r)).slt 1000#32)
    ∧ StableHlo.after hostOps3 F main_v11 (ix1 r) = BitVec.ofBool ((F main_arg1 (ix1 r)).slt 10000#32) := by
  constructor <;> (after_results; rfl)

/-- Each of the three row vectors is its column array read down the rows. -/
private theorem s3_cols (r : Fin 4096) :
    StableHlo.after hostOps3 F main_v9 (ix1 r) = F main_v2 (ix2 r (0 : Fin 1))
    ∧ StableHlo.after hostOps3 F main_v12 (ix1 r) = F main_v5 (ix2 r (0 : Fin 1))
    ∧ StableHlo.after hostOps3 F main_v13 (ix1 r) = F main_v6 (ix2 r (0 : Fin 1)) := by
  refine ⟨?_, ?_, ?_⟩ <;> (after_results; exact (shapeCast_apply _ _ _ (ix2 r (0 : Fin 1)) (rowMajor_col r).symm).trans rfl)

end Stretches

theorem V1_v0 (c : Dev nD) (r : Fin 4096) :
    Reg.V1 m c main_v0 (ix2 r (0 : Fin 1)) = m ((c : Thread nD τ).loc main_arg1) (ix1 r) := by
  show StableHlo.after hostOps0 (Reg.W0 m c) main_v0 (ix2 r (0 : Fin 1)) = _
  after_results
  exact (shapeCast_apply _ _ _ (ix1 r) (rowMajor_col r)).trans rfl

theorem V3_v0 (c : Dev nD) (r : Fin 4096) :
    Reg.V3 m c main_v0 (ix2 r (0 : Fin 1)) = m ((c : Thread nD τ).loc main_arg1) (ix1 r) := by
  exact (congrFun ((StableHlo.after_of_writes_sub hostOps1 (Reg.W2 m c) hostOps1_writes (by decide)).trans
    (Reg.W2_keep m c main_v0 (by decide))) _).trans (V1_v0 m c r)

/-- The three columns of the head region's output array, cut out one by one. -/
private theorem W3_cols (c : Dev nD) (r : Fin 4096) :
    Reg.W3 m c main_v2 (ix2 r (0 : Fin 1)) = (Reg.dat0 (Reg.V1 m) c).arrAt 3 cfg0.N (ix2 r (0 : Fin 3))
    ∧ Reg.W3 m c main_v3 (ix2 r (0 : Fin 1)) = (Reg.dat0 (Reg.V1 m) c).arrAt 3 cfg0.N (ix2 r (1 : Fin 3))
    ∧ Reg.W3 m c main_v4 (ix2 r (0 : Fin 1)) = (Reg.dat0 (Reg.V1 m) c).arrAt 3 cfg0.N (ix2 r (2 : Fin 3)) := by
  refine ⟨?_, ?_, ?_⟩ <;>
    (show StableHlo.after hostOps1 (Reg.W2 m c) _ _ = _
     after_results
     exact (slice_col _ _ (by decide) _ r).trans (congrFun (Reg.W2_arr m c 3) _))

theorem V3_v3 (c : Dev nD) (r : Fin 4096) :
    Reg.V3 m c main_v3 (ix2 r (0 : Fin 1)) = (Reg.dat0 (Reg.V1 m) c).arrAt 3 cfg0.N (ix2 r (1 : Fin 3)) :=
  (W3_cols m c r).2.1

theorem V4_v0 (c : Dev nD) (r : Fin 4096) :
    Reg.V4 m c main_v0 (ix2 r (0 : Fin 1)) = m ((c : Thread nD τ).loc main_arg1) (ix1 r) :=
  (congrFun (Reg.W4_keep m c main_v0 (by decide)) _).trans (V3_v0 m c r)

theorem V4_v4 (c : Dev nD) (r : Fin 4096) :
    Reg.V4 m c main_v4 (ix2 r (0 : Fin 1)) = (Reg.dat0 (Reg.V1 m) c).arrAt 3 cfg0.N (ix2 r (2 : Fin 3)) :=
  (congrFun (Reg.W4_of_ne m c main_v4 (by decide)) _).trans (W3_cols m c r).2.2

private theorem W5_arg1 (c : Dev nD) : Reg.W5 m c main_arg1 = m ((c : Thread nD τ).loc main_arg1) :=
  (Reg.W5_keep m c main_arg1 (by decide)).trans (Reg.V4_arg m c main_arg1 (by decide))

theorem W9_v15 (c : Dev nD) (r : Fin 4096) :
    Reg.W9 m c (Proc.devRef .tc main_v15) (ix1 r)
      = if (m ((c : Thread nD τ).loc main_arg1) (ix1 r)).slt 1000#32 then (Reg.dat0 (Reg.V1 m) c).arrAt 3 cfg0.N (ix2 r (0 : Fin 3))
        else if (m ((c : Thread nD τ).loc main_arg1) (ix1 r)).slt 10000#32 then (Reg.dat1 (Reg.V3 m) c).arrAt 5 cfg1.N (ix2 r (0 : Fin 1))
        else (Reg.dat2 (Reg.V4 m) c).arrAt 5 cfg2.N (ix2 r (0 : Fin 1)) := by
  refine (congrFun (s33_v15 (Reg.W8 m c)) _).trans ((s32_v15 (Reg.W7 m c) r).trans
    (select_if ?_ ?_ ((s31_v14 (Reg.W6 m c) r).trans (select_if ?_ ?_ ?_))))
  · exact (congrFun (s31_keep (Reg.W6 m c)).1 _).trans (((s3_cmp (Reg.W5 m c) r).1).trans (by rw [W5_arg1 m c]))
  · exact (congrFun (s31_keep (Reg.W6 m c)).2 _).trans (((s3_cols (Reg.W5 m c) r).1).trans
      ((congrFun ((Reg.W5_of_ne m c main_v2 (by decide)).trans (Reg.W4_of_ne m c main_v2 (by decide))) _).trans (W3_cols m c r).1))
  · exact ((s3_cmp (Reg.W5 m c) r).2).trans (by rw [W5_arg1 m c])
  · exact ((s3_cols (Reg.W5 m c) r).2.1).trans (congrFun ((Reg.W5_of_ne m c main_v5 (by decide)).trans (Reg.W4_arr m c 5)) _)
  · exact ((s3_cols (Reg.W5 m c) r).2.2).trans (congrFun (Reg.W5_arr m c 5) _)

theorem W9_v18 (c : Dev nD) : Reg.W9 m c (Proc.devRef .tc main_v18)
    = Host.negf (F := Ideal) (Host.divf (F := Ideal) (Host.reduceAdd (F := Ideal) (Reg.W9 m c (Proc.devRef .tc main_v15))
        (constant (F := Ideal) S_ .f32 0x00000000#32) reducesTo_S4096_S_d0 h_S_) (constant (F := Ideal) S_ .f32 0x45800000#32)) := by
  rw [show Reg.W9 m c main_v15 = Reg.W8 m c main_v15 from s33_v15 (Reg.W8 m c)]
  show StableHlo.after hostOps3_3 (Reg.W8 m c) main_v18 = _
  generalize Reg.W8 m c = F
  after_results

end Cert.KernelIdeal.Val

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : ℕ) : Type := FVec Ideal (⟨2, ![a, b]⟩ : Shape) .f32

def rowMax {n : ℕ} (L : Fin n → EReal) : EReal := (Finset.univ : Finset (Fin n)).fold max ⊥ L

-- A row's log-softmax at an index, the row's maximum subtracted first.
def lsmE {n : ℕ} (L : Fin n → EReal) (i : Fin n) : EReal :=
  (L i - rowMax L) - Ideal.log (∑ j : Fin n, Ideal.exp (L j - rowMax L))

def lsm {n : ℕ} (L : Fin n → ℝ) (i : Fin n) : ℝ := L i - Real.log (∑ j : Fin n, Real.exp (L j))

-- Row `r` of `x · wᵀ`.
def rowDot {N K C : ℕ} (x : Mat N K) (w : Mat C K) (r : Fin N) (j : Fin C) : EReal :=
  ∑ k : Fin K, x (ix2 r k) * w (ix2 j k)

-- Row `r` of `(x · w1ᵀ) · w2ᵀ`.
def rowDot2 {N K H C : ℕ} (x : Mat N K) (w1 : Mat H K) (w2 : Mat C H) (r : Fin N) (j : Fin C) : EReal :=
  ∑ k' : Fin H, rowDot x w1 r k' * w2 (ix2 j k')

-- `clip(v, 0, hi)` of a signed word, as a natural number.
def clampIdx (hi : ℕ) (v : BitVec 32) : ℕ := min hi v.toInt.toNat

theorem clampIdx_le (hi : ℕ) (v : BitVec 32) : clampIdx hi v ≤ hi := Nat.min_le_left _ _

def tcH (t : BitVec 32) : Fin 1002 := ⟨clampIdx 999 t, by have := clampIdx_le 999 t; omega⟩
def tc0 (t : BitVec 32) : Fin 9000 := ⟨clampIdx 8999 (t - 1000#32), by have := clampIdx_le 8999 (t - 1000#32); omega⟩
def tc1 (t : BitVec 32) : Fin 40257 := ⟨clampIdx 40256 (t - 10000#32), by have := clampIdx_le 40256 (t - 10000#32); omega⟩

-- The result at row `r` for the target word `t`: the head's log-probability of the target, or of a cluster plus a tail's.
def outRow (x : Mat 4096 2048) (wh : Mat 1002 2048) (w10 : Mat 512 2048) (w20 : Mat 9000 512)
    (w11 : Mat 128 2048) (w21 : Mat 40257 128) (t : BitVec 32) (r : Fin 4096) : EReal :=
  if t.slt 1000#32 then lsmE (rowDot x wh r) (tcH t)
  else if t.slt 10000#32 then lsmE (rowDot x wh r) ⟨1000, by omega⟩ + lsmE (rowDot2 x w10 w20 r) (tc0 t)
  else lsmE (rowDot x wh r) ⟨1001, by omega⟩ + lsmE (rowDot2 x w11 w21 r) (tc1 t)

theorem ofBits_neg_inf : Ideal.ofBits .f32 0xFF800000#32 = (⊥ : EReal) := by simp [Ideal.ofBits, Ideal.ieee]

end Cert.Spec

end
-- ==== Proof.LseMath.lean ====
import proofs.«416445_j13245679141252_2_alg».proof.Proof.Spec
import Mathlib.Analysis.SpecialFunctions.Log.Basic
import Mathlib.Analysis.SpecialFunctions.Exp
import Mathlib.Data.EReal.Basic
import Mathlib.Data.EReal.Operations
import Mathlib.Algebra.BigOperators.Fin
import Mathlib.Algebra.BigOperators.Group.Finset.Piecewise
import Mathlib.Data.Finset.Fold

noncomputable section

namespace Cert.LseMath

open Idealize.ShloMosaic Idealize.ShloMosaic.ValueIdx Cert.Spec

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

private theorem rowMax_real {n : ℕ} (f : Fin n → EReal) (htop : ∀ j, f j ≠ ⊤) (j0 : Fin n) (h0 : f j0 ≠ ⊥) :
    ∃ M : ℝ, rowMax f = (M : EReal) := by
  refine ⟨(rowMax f).toReal, (EReal.coe_toReal ?_ ?_).symm⟩
  · exact ((Finset.fold_max_lt _).2 ⟨bot_lt_top, fun x _ => lt_top_iff_ne_top.2 (htop x)⟩).ne
  · exact ((Finset.lt_fold_max _).2 (Or.inr ⟨j0, Finset.mem_univ _, bot_lt_iff_ne_bot.2 h0⟩)).ne'

theorem rowMax_coe {n : ℕ} (hn : 0 < n) (L : Fin n → ℝ) : ∃ M : ℝ, rowMax (fun j => (L j : EReal)) = (M : EReal) :=
  rowMax_real _ (fun j => EReal.coe_ne_top _) ⟨0, hn⟩ (EReal.coe_ne_bot _)

private theorem sum_exp_pos {ι : Type*} (s : Finset ι) (hs : s.Nonempty) (f : ι → ℝ) : 0 < ∑ i ∈ s, Real.exp (f i) :=
  Finset.sum_pos (fun i _ => Real.exp_pos _) hs

private theorem log_sum_shift {ι : Type*} (s : Finset ι) (hs : s.Nonempty) (f : ι → ℝ) (M : ℝ) :
    Real.log (∑ i ∈ s, Real.exp (f i - M)) = Real.log (∑ i ∈ s, Real.exp (f i)) - M := by
  have h : ∑ i ∈ s, Real.exp (f i - M) = (∑ i ∈ s, Real.exp (f i)) / Real.exp M := by
    rw [Finset.sum_div]
    exact Finset.sum_congr rfl fun i _ => Real.exp_sub _ _
  rw [h, Real.log_div (sum_exp_pos s hs f).ne' (Real.exp_pos M).ne', Real.log_exp]

private theorem sum_exp_coe {ι : Type*} (s : Finset ι) (f : ι → ℝ) (M : ℝ) :
    ∑ i ∈ s, Ideal.exp ((f i : EReal) - (M : EReal)) = ((∑ i ∈ s, Real.exp (f i - M) : ℝ) : EReal) := by
  rw [coe_sum]
  exact Finset.sum_congr rfl fun i _ => by rw [← EReal.coe_sub, Ideal.exp_coe]

private theorem log_pos_coe (r : ℝ) (hr : 0 < r) : Ideal.log (r : EReal) = (Real.log r : EReal) := by
  rw [Ideal.log_coe, if_neg (not_le.2 hr)]

private theorem log_shifted {n : ℕ} (hn : 0 < n) (L : Fin n → ℝ) (M : ℝ) :
    Ideal.log (∑ j : Fin n, Ideal.exp ((L j : EReal) - (M : EReal)))
      = ((Real.log (∑ j : Fin n, Real.exp (L j)) - M : ℝ) : EReal) := by
  have hne : (Finset.univ : Finset (Fin n)).Nonempty := ⟨⟨0, hn⟩, Finset.mem_univ _⟩
  rw [sum_exp_coe, log_pos_coe _ (sum_exp_pos _ hne _), log_sum_shift _ hne]

theorem lsmE_coe {n : ℕ} (hn : 0 < n) (L : Fin n → ℝ) (i : Fin n) :
    lsmE (fun j => (L j : EReal)) i = ((lsm L i : ℝ) : EReal) := by
  obtain ⟨M, hM⟩ := rowMax_coe hn L
  simp only [lsmE, lsm]
  rw [hM, log_shifted hn, ← EReal.coe_sub, ← EReal.coe_sub]
  congr 1
  ring

theorem head_form {n : ℕ} (hn : 0 < n) (L : Fin n → ℝ) (i : Fin n) :
    (L i : EReal) - (rowMax (fun j => (L j : EReal))
        + Ideal.log (∑ j : Fin n, Ideal.exp ((L j : EReal) - rowMax (fun j => (L j : EReal)))))
      = ((lsm L i : ℝ) : EReal) := by
  obtain ⟨M, hM⟩ := rowMax_coe hn L
  rw [hM, log_shifted hn, ← EReal.coe_add, ← EReal.coe_sub]
  simp only [lsm]
  congr 1
  ring

theorem rowDot_coe {N K C : ℕ} (x : Mat N K) (w : Mat C K) (xr : Fin N → Fin K → ℝ) (wr : Fin C → Fin K → ℝ)
    (hx : ∀ r k, x (ix2 r k) = (xr r k : EReal)) (hw : ∀ j k, w (ix2 j k) = (wr j k : EReal)) (r : Fin N) (j : Fin C) :
    rowDot x w r j = ((∑ k : Fin K, xr r k * wr j k : ℝ) : EReal) := by
  rw [coe_sum]
  exact Finset.sum_congr rfl fun k _ => by rw [hx, hw, EReal.coe_mul]

theorem rowDot2_coe {N K H C : ℕ} (x : Mat N K) (w1 : Mat H K) (w2 : Mat C H)
    (xr : Fin N → Fin K → ℝ) (w1r : Fin H → Fin K → ℝ) (w2r : Fin C → Fin H → ℝ)
    (hx : ∀ r k, x (ix2 r k) = (xr r k : EReal)) (hw1 : ∀ j k, w1 (ix2 j k) = (w1r j k : EReal))
    (hw2 : ∀ j k, w2 (ix2 j k) = (w2r j k : EReal)) (r : Fin N) (j : Fin C) :
    rowDot2 x w1 w2 r j = ((∑ k' : Fin H, (∑ k : Fin K, xr r k * w1r k' k) * w2r j k' : ℝ) : EReal) := by
  rw [coe_sum]
  exact Finset.sum_congr rfl fun k' _ => by rw [rowDot_coe x w1 xr w1r hx hw1, hw2, EReal.coe_mul]

structure Acc where
  m : EReal
  l : EReal
  g : EReal

private theorem prefix_tile (f : ℕ → ℝ) (a n : ℕ) : ∀ b : ℕ,
    ∑ i ∈ Finset.range (min a n), f i + ∑ c ∈ Finset.range b, (if a + c < n then f (a + c) else 0)
      = ∑ i ∈ Finset.range (min (a + b) n), f i
  | 0 => by simp
  | b + 1 => by
    rw [Finset.sum_range_succ, ← add_assoc, prefix_tile f a n b]
    by_cases h : a + b < n
    · rw [if_pos h, show min (a + b) n = a + b by omega, show min (a + (b + 1)) n = a + b + 1 by omega,
        Finset.sum_range_succ]
    · rw [if_neg h, add_zero, show min (a + b) n = min (a + (b + 1)) n by omega]

private theorem tile_exp (L : ℕ → ℝ) (a n C : ℕ) (m' : ℝ) :
    ∑ c : Fin C, Ideal.exp ((if a + c.val < n then (L (a + c.val) : EReal) else ⊥) - (m' : EReal))
      = ((∑ c ∈ Finset.range C, (if a + c < n then Real.exp (L (a + c) - m') else 0) : ℝ) : EReal) := by
  rw [← Fin.sum_univ_eq_sum_range (fun c => if a + c < n then Real.exp (L (a + c) - m') else 0) C, coe_sum]
  refine Finset.sum_congr rfl fun c _ => ?_
  by_cases h : a + c.val < n
  · rw [if_pos h, if_pos h, ← EReal.coe_sub, Ideal.exp_coe]
  · rw [if_neg h, if_neg h, EReal.bot_sub, Ideal.exp_bot, EReal.coe_zero]

private theorem tile_pick (L : ℕ → ℝ) (a n C idx : ℕ) (hidx : idx < n) :
    ∑ c : Fin C, (if a + c.val = idx then (L (a + c.val) : EReal) else 0)
      = ((∑ c ∈ Finset.range C, (if a + c < n then (if a + c = idx then L (a + c) else 0) else 0) : ℝ) : EReal) := by
  rw [← Fin.sum_univ_eq_sum_range (fun c => if a + c < n then (if a + c = idx then L (a + c) else 0) else 0) C,
    coe_sum]
  refine Finset.sum_congr rfl fun c _ => ?_
  by_cases h : a + c.val = idx
  · rw [if_pos h, if_pos (show a + c.val < n by omega), if_pos h]
  · rw [if_neg h, if_neg h, ite_self, EReal.coe_zero]

private def Inv (C n : ℕ) (L : ℕ → ℝ) (idx j : ℕ) (A : Acc) : Prop :=
  ∃ m' : ℝ, A.m = (m' : EReal)
    ∧ A.l = ((∑ i ∈ Finset.range (min (j * C) n), Real.exp (L i - m') : ℝ) : EReal)
    ∧ A.g = ((∑ i ∈ Finset.range (min (j * C) n), (if i = idx then L i else 0) : ℝ) : EReal)

-- One tile keeps the invariant: the old sum is rescaled by `exp(m − m')`, so it stays the sum against the new maximum.
private theorem tile_step (C n : ℕ) (hC : 0 < C) (L : ℕ → ℝ) (idx : ℕ) (hidx : idx < n) (j : ℕ) (hj : j * C < n)
    (A B : Acc) (hA : (j = 0 ∧ A.m = ⊥ ∧ A.l = 0 ∧ A.g = 0) ∨ Inv C n L idx j A)
    (hm : B.m = max A.m (rowMax fun c : Fin C => if j * C + c.val < n then (L (j * C + c.val) : EReal) else ⊥))
    (hl : B.l = Ideal.exp (A.m - B.m) * A.l
            + ∑ c : Fin C, Ideal.exp ((if j * C + c.val < n then (L (j * C + c.val) : EReal) else ⊥) - B.m))
    (hg : B.g = A.g + ∑ c : Fin C, (if j * C + c.val = idx then (L (j * C + c.val) : EReal) else 0)) :
    Inv C n L idx (j + 1) B := by
  obtain ⟨Mt, hMt⟩ := rowMax_real (fun c : Fin C => if j * C + c.val < n then (L (j * C + c.val) : EReal) else ⊥)
    (fun c => by split_ifs; exacts [EReal.coe_ne_top _, bot_ne_top]) ⟨0, hC⟩
    (by simp only [Nat.add_zero]; rw [if_pos hj]; exact EReal.coe_ne_bot _)
  rw [hMt] at hm
  have hsucc : (j + 1) * C = j * C + C := Nat.succ_mul j C
  have hpick : ∀ g0 : EReal,
      g0 = ((∑ i ∈ Finset.range (min (j * C) n), (if i = idx then L i else 0) : ℝ) : EReal) →
      g0 + ∑ c : Fin C, (if j * C + c.val = idx then (L (j * C + c.val) : EReal) else 0)
        = ((∑ i ∈ Finset.range (min ((j + 1) * C) n), (if i = idx then L i else 0) : ℝ) : EReal) := by
    intro g0 hg0
    rw [hg0, tile_pick L (j * C) n C idx hidx, ← EReal.coe_add, hsucc,
      prefix_tile (fun i => if i = idx then L i else 0) (j * C) n C]
  rcases hA with ⟨hj0, hAm, hAl, hAg⟩ | ⟨m0, hAm, hAl, hAg⟩
  · have hmin : min (j * C) n = 0 := by rw [hj0, Nat.zero_mul, Nat.zero_min]
    rw [hAm, max_eq_right bot_le] at hm
    refine ⟨Mt, hm, ?_, ?_⟩
    · rw [hl, hm, hAl, mul_zero, zero_add, tile_exp, hsucc,
        ← prefix_tile (fun i => Real.exp (L i - Mt)) (j * C) n C, hmin, Finset.range_zero, Finset.sum_empty, zero_add]
    · rw [hg]
      exact hpick _ (by rw [hAg, hmin, Finset.range_zero, Finset.sum_empty, EReal.coe_zero])
  · rw [hAm, ← EReal.coe_strictMono.monotone.map_max] at hm
    refine ⟨max m0 Mt, hm, ?_, ?_⟩
    · rw [hl, hm, hAm, hAl, ← EReal.coe_sub, Ideal.exp_coe, ← EReal.coe_mul, tile_exp, ← EReal.coe_add, hsucc,
        ← prefix_tile (fun i => Real.exp (L i - max m0 Mt)) (j * C) n C, Finset.mul_sum]
      congr 2
      refine Finset.sum_congr rfl fun i _ => ?_
      rw [← Real.exp_add]
      congr 1
      ring
    · rw [hg]
      exact hpick _ hAg

-- The online recurrence over class tiles (running maximum, rescaled running sum, running pick) ends at the log-softmax.
theorem online_final (T C n : ℕ) (hC : 0 < C) (hT : 0 < T) (hlast : (T - 1) * C < n) (hn : n ≤ T * C)
    (L : ℕ → ℝ) (idx : ℕ) (hidx : idx < n) (a : ℕ → Acc) (h0 : a 0 = ⟨⊥, 0, 0⟩)
    (hstep : ∀ j, j < T →
        (a (j + 1)).m = max (a j).m (rowMax fun c : Fin C => if j * C + c.val < n then (L (j * C + c.val) : EReal) else ⊥) ∧
        (a (j + 1)).l = Ideal.exp ((a j).m - (a (j + 1)).m) * (a j).l
            + ∑ c : Fin C, Ideal.exp ((if j * C + c.val < n then (L (j * C + c.val) : EReal) else ⊥) - (a (j + 1)).m) ∧
        (a (j + 1)).g = (a j).g + ∑ c : Fin C, (if j * C + c.val = idx then (L (j * C + c.val) : EReal) else 0))
    (cc : ℝ) :
    (cc : EReal) + ((a T).g - ((a T).m + Ideal.log (a T).l))
      = ((cc + lsm (fun i : Fin n => L i.val) ⟨idx, hidx⟩ : ℝ) : EReal) := by
  have hjC : ∀ j, j < T → j * C < n := fun j hj =>
    lt_of_le_of_lt (Nat.mul_le_mul_right C (by omega)) hlast
  have key : ∀ j, j ≤ T → (j = 0 ∧ (a j).m = ⊥ ∧ (a j).l = 0 ∧ (a j).g = 0) ∨ Inv C n L idx j (a j) := by
    intro j
    induction j with
    | zero => exact fun _ => Or.inl ⟨rfl, congrArg Acc.m h0, congrArg Acc.l h0, congrArg Acc.g h0⟩
    | succ j ih =>
      intro hj
      obtain ⟨hm, hl, hg⟩ := hstep j hj
      exact Or.inr (tile_step C n hC L idx hidx j (hjC j hj) _ _ (ih (by omega)) hm hl hg)
  obtain ⟨m', hm, hl, hg⟩ := (key T le_rfl).resolve_left fun h => by omega
  rw [show min (T * C) n = n by omega] at hl hg
  have hne : (Finset.range n).Nonempty := ⟨idx, Finset.mem_range.2 hidx⟩
  rw [hg, hm, hl, log_pos_coe _ (sum_exp_pos _ hne _), log_sum_shift _ hne, Finset.sum_ite_eq',
    if_pos (Finset.mem_range.2 hidx), ← EReal.coe_add, ← EReal.coe_sub, ← EReal.coe_add]
  simp only [lsm]
  rw [Fin.sum_univ_eq_sum_range (fun i => Real.exp (L i)) n]
  congr 1
  ring

end Cert.LseMath

end
-- ==== Proof.LibMatT.lean ====
import Idealize.ShloMosaic.Lib.Pipeline.Value
import Idealize.ShloMosaic.Lib.ValueIdx
import Idealize.ShloMosaic.PureOps.Ideal.Laws

namespace Cert.Lib

open Idealize.ShloMosaic Idealize.ShloMosaic.ValueIdx

/-- A product into the zero splat, both operands contracted along their second axis: entry (p, j) is row p against row j. -/
theorem matmul_nt_apply {M K N : ℕ} {φ₁ φ₂ : FTy} (a : FVec Ideal ⟨2, ![M, K]⟩ φ₁) (b : FVec Ideal ⟨2, ![N, K]⟩ φ₂)
    (p : Fin M) (j : Fin N) :
    FloatOps.matmul (.transposedRhs M K N) none a b (constant ⟨2, ![M, N]⟩ .f32 0x00000000#32) (ix2 p j)
      = ∑ k : Fin K, a (ix2 p k) * b (ix2 j k) := by
  rw [Ideal.matmul_constant_zero_apply, ← Equiv.sum_comp (contrEquiv1 (.transposedRhs M K N) K rfl rfl).symm]
  exact Finset.sum_congr rfl fun k _ =>
    have hk := contrEquiv1_symm_val (.transposedRhs M K N) K rfl rfl k
    congrArg₂ (fun u v => a u * b v) (Shape.idx_ext₂ rfl ((DotDims.lhsIdx_val_of_single _ rfl _ _).trans hk))
      (Shape.idx_ext₂ rfl ((DotDims.rhsIdx_val_of_single _ rfl _ _).trans hk))

/-- A vector of n entries cast to a column: entry (p, z) of the column is entry p of the vector. -/
theorem col_apply {α : Type} {n : ℕ} (v : (⟨1, ![n]⟩ : Shape).Idx → α) {h : (⟨1, ![n]⟩ : Shape).ShapeCasts ⟨2, ![n, 1]⟩}
    (p : Fin n) (z : Fin 1) : shapeCast ⟨2, ![n, 1]⟩ v h (ix2 p z) = v (ix1 p) := by
  refine shapeCast_apply v _ _ _ ?_
  rw [Shape.rowMajor_val_one, Shape.rowMajor_val_two]
  show p.val = p.val * 1 + z.val
  omega

end Cert.Lib
-- ==== Proof.KI.Val0.lean ====
import proofs.«416445_j13245679141252_2_alg».proof.Proof.KI.Reg0
import proofs.«416445_j13245679141252_2_alg».proof.Proof.Spec
import proofs.«416445_j13245679141252_2_alg».proof.Proof.LseMath
import proofs.«416445_j13245679141252_2_alg».proof.Proof.LibMatT
import Idealize.ShloMosaic.Lib.ValueLayout
import Idealize.ShloMosaic.Lib.WordArith
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.ShloMosaic.WordArith Cert.Spec
open Idealize.SL.Sem

theorem lift_row (p : Fin 512) (k : Fin 1002) :
    reduces_S512x1002_S512.lift (ix1 p) k = ix2 p k := by
  funext c; apply Fin.ext
  match c with
  | ⟨0, _⟩ => rfl
  | ⟨1, _⟩ => rfl

theorem rowmax_apply (v : FVec Ideal S512x1002 .f32) (p : Fin 512) :
    multiReduction (F := Ideal) .maximumf [1] S512 v 0xFF800000#32 reduces_S512x1002_S512 (.inl rfl) rfl (ix1 p)
      = rowMax (fun j : Fin 1002 => v (ix2 p j)) := by
  refine (Ideal.multiReduction_maximumf_single _ _ _ _ _ _).trans ?_
  show (Finset.univ : Finset (Fin 1002)).fold max (Ideal.ofBits .f32 0xFF800000#32) _ = _
  rw [ofBits_neg_inf]
  unfold rowMax
  congr 1
  funext k
  exact congrArg v (lift_row p k)

theorem rowsum_apply (v : FVec Ideal S512x1002 .f32) (p : Fin 512) :
    multiReduction (F := Ideal) .add [1] S512 v 0x00000000#32 reduces_S512x1002_S512 (.inl rfl) rfl (ix1 p)
      = ∑ j : Fin 1002, v (ix2 p j) :=
  (Ideal.multiReduction_add_single _ _ _ _ _ _).trans (Finset.sum_congr rfl fun k _ => congrArg v (lift_row p k))

theorem bcast_apply {α : Type} (v : S512x1.Idx → α) (p : Fin 512) (j : Fin 1002) :
    broadcastTo S512x1002 v broadcasts_S512x1_S512x1002 (ix2 p j) = v (ix2 p 0) := by
  refine broadcastTo_apply v _ _ _ fun a => ?_
  match a with
  | ⟨0, _⟩ => rfl
  | ⟨1, _⟩ => rfl

theorem concat3_apply {α : Type} (c0 c1 c2 : S512x1.Idx → α) (p : Fin 512) (q : Fin 3) :
    concatenate S512x3 1 [⟨S512x1, c0⟩, ⟨S512x1, c1⟩, ⟨S512x1, c2⟩] concatenates_S512x1_S512x1_S512x1_S512x3_d1 (ix2 p q)
      = (match q with | 0 => c0 | 1 => c1 | 2 => c2) (ix2 p 0) := by
  refine concatenate_apply_piece (1 : Fin S512x3.rank) _ _ _ q.val (by exact q.isLt) S512x1 _ (by match q with | 0 | 1 | 2 => rfl) rfl q.val
    (by match q with | 0 | 1 | 2 => rfl) (ix2 p 0) (fun b hb => ?_) rfl
  match b with
  | ⟨0, _⟩ => rfl
  | ⟨1, _⟩ => exact absurd rfl hb

def clipW (t : BitVec 32) : BitVec 32 := IntOp.minsi 999#32 (IntOp.maxsi 0#32 t)

theorem clipW_toNat (t : BitVec 32) : (clipW t).toNat = clampIdx 999 t := by
  have h1 := toNat_maxsi_zero t
  have hlt : (IntOp.maxsi 0#32 t).toNat < 2 ^ 31 := by
    rw [h1]; have := BitVec.toInt_lt (x := t); omega
  unfold clipW clampIdx
  rw [toNat_minsi_of_lt _ _ (by decide) hlt, h1]
  rfl

theorem pick_sum (L : Fin 1002 → EReal) (t : BitVec 32) :
    ∑ j : Fin 1002, Scalar.select (IntOp.cmpi .eq (BitVec.ofNat 32 j.val) (clipW t)) (L j) (0 : EReal) = L (tcH t) := by
  have hc : (clipW t).toNat = (tcH t).val := clipW_toNat t
  have hb : ∀ j : Fin 1002, (BitVec.ofNat 32 j.val = clipW t) ↔ j = tcH t := fun j => by
    rw [Fin.ext_iff, ← BitVec.toNat_inj, BitVec.toNat_ofNat, hc]; have := j.isLt; have := (tcH t).isLt; omega
  rw [Finset.sum_eq_single (tcH t) (fun j _ hj => ?_) fun h => absurd (Finset.mem_univ _) h]
  · show (if BitVec.ofBool (BitVec.ofNat 32 (tcH t).val == clipW t) = 1 then _ else _) = _
    rw [beq_iff_eq.mpr ((hb _).mpr rfl)]; rfl
  · show (if BitVec.ofBool (BitVec.ofNat 32 j.val == clipW t) = 1 then _ else _) = _
    rw [beq_eq_false_iff_ne.mpr (mt (hb j).mp hj)]; rfl

def lseE (L : Fin 1002 → EReal) : EReal := rowMax L + Ideal.log (∑ j : Fin 1002, Ideal.exp (L j - rowMax L))

def logitRow (x0 : Vec Ideal S512x2048 .f32) (x1 : Vec Ideal S1002x2048 .f32) (p : Fin 512) : Fin 1002 → EReal :=
  fun j => ∑ k : Fin 2048, x0 (ix2 p k) * x1 (ix2 j k)

theorem log_at {s : Shape} {φ : FTy} (a : FVec Ideal s φ) (i : s.Idx) : log a i = Ideal.log (a i) := rfl
/-- A row's log-softmax at the clipped target (q = 0) and at the two cluster columns (q = 1, 2). -/
def headOf (L : Fin 1002 → EReal) (t : BitVec 32) (q : Fin 3) : EReal :=
  (match q with
    | 0 => L (tcH t)
    | 1 => L ⟨1000, by omega⟩
    | 2 => L ⟨1001, by omega⟩) - lseE L

/-- Column q of the payload at row p: the picked logit minus the row's maximum plus log of the sum of shifted exponentials. -/
theorem pay_col (x0 : Vec Ideal S512x2048 .f32) (x1 : Vec Ideal S1002x2048 .f32) (x2 : Vec Ideal S512x1 .i32) (p : Fin 512) (q : Fin 3) :
    k0_pay1 (F := Ideal) x0 x1 x2 (ix2 p q) = headOf (logitRow x0 x1 p) (x2 (ix2 p 0)) q := by
  unfold k0_pay1
  dsimp only []
  generalize hv4 : matmul (F := Ideal) _ none _ _ _ = v4
  have hL : ∀ j : Fin 1002, v4 (ix2 p j) = logitRow x0 x1 p j := fun j => by
    rw [← hv4]; exact Cert.Lib.matmul_nt_apply (K := 2048) _ _ p j
  have hv : (fun j : Fin 1002 => v4 (ix2 p j)) = logitRow x0 x1 p := funext hL
  rw [concat3_apply]
  match q with
  | 0 | 1 | 2 =>
    refine (subf_apply _ _ _).trans (congrArg₂ (· - ·) ?_ ?_)
    · first
      | exact (slice2_axis1_eq _ v4 _ p 0).trans (hL _)
      | (refine ((Cert.Lib.col_apply _ p 0).trans ((rowsum_apply _ p).trans (Finset.sum_congr rfl fun j _ => ?_))).trans (pick_sum (logitRow x0 x1 p) (x2 (ix2 p 0)))
         show Scalar.select (IntOp.cmpi .eq (iota .tc S512x1002 32 [1] iota_S512x1002_d1_w32 (ix2 p j)) (broadcastTo S512x1002 _ broadcasts_S512x1_S512x1002 (ix2 p j))) (v4 (ix2 p j)) (Ideal.ofBits .f32 0x00000000#32) = _
         rw [iota_single_apply, bcast_apply, hL, Ideal.ofBits_zero_f32, shapeCast_self]
         rfl)
    · rw [addf_apply, Cert.Lib.col_apply, log_at, Cert.Lib.col_apply, rowmax_apply, rowsum_apply, hv]
      unfold lseE
      refine congrArg₂ (· + ·) rfl (congrArg Ideal.log (Finset.sum_congr rfl fun j _ => ?_))
      show Ideal.exp (v4 (ix2 p j) - broadcastTo S512x1002 _ broadcasts_S512x1_S512x1002 (ix2 p j)) = _
      rw [bcast_apply, Cert.Lib.col_apply, rowmax_apply, hv, hL]

variable (V : (c : Dev nD) → (b : Ref sig .tc) → Buf (Elt Ideal) ((c : Thread nD τ).loc b))

abbrev Xa (c : Dev nD) : S4096x2048.Idx → EReal := V c main_arg0
abbrev Wa (c : Dev nD) : S1002x2048.Idx → EReal := V c main_arg2
abbrev Ta (c : Dev nD) : S4096x1.Idx → BitVec 32 := V c main_v0

theorem zero_offsets : (![0, 0] : Fin 2 → Nat) = fun _ => 0 := funext fun a => by fin_cases a <;> rfl

def headArr (X : S4096x2048.Idx → EReal) (W : S1002x2048.Idx → EReal) (T : S4096x1.Idx → BitVec 32) (i : S4096x3.Idx) : EReal :=
  headOf (fun j : Fin 1002 => ∑ k : Fin 2048, X (ix2 ⟨(i 0).val, idx2_lt0 i⟩ k) * W (ix2 j k)) (T (ix2 ⟨(i 0).val, idx2_lt0 i⟩ 0)) ⟨(i 1).val, idx2_lt1 i⟩

theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

def rowAt (t : Fin cfg0.N) (p : Fin 512) : Fin 4096 :=
  ⟨t.val * 512 + p.val, by have ht : t.val < grid0.N := t.isLt; rw [N_0] at ht; have := p.isLt; omega⟩

theorem emb_x (t : Fin cfg0.N) (p : Fin 512) (k : Fin 2048) : ((cfg0.win 0).blk t).view.emb (ix2 p k) = ix2 (rowAt t p) k := by
  obtain ⟨e0, e1, -⟩ := index_facts t
  funext a; apply Fin.ext
  match a with
  | ⟨0, _⟩ => show win0_0.index t (0 : Fin 2) * 512 + 1 * p.val = t.val * 512 + p.val; omega
  | ⟨1, _⟩ => show win0_0.index t (1 : Fin 2) * 2048 + 1 * k.val = k.val; omega
theorem emb_w (t : Fin cfg0.N) (j : Fin 1002) (k : Fin 2048) : ((cfg0.win 1).blk t).view.emb (ix2 j k) = ix2 j k := by
  obtain ⟨-, -, e2, e3, -⟩ := index_facts t
  funext a; apply Fin.ext
  match a with
  | ⟨0, _⟩ => show win0_1.index t (0 : Fin 2) * 1002 + 1 * j.val = j.val; omega
  | ⟨1, _⟩ => show win0_1.index t (1 : Fin 2) * 2048 + 1 * k.val = k.val; omega
theorem emb_t (t : Fin cfg0.N) (p : Fin 512) (z : Fin 1) : ((cfg0.win 2).blk t).view.emb (ix2 p z) = ix2 (rowAt t p) z := by
  obtain ⟨-, -, -, -, e4, e5, -⟩ := index_facts t
  funext a; apply Fin.ext
  match a with
  | ⟨0, _⟩ => show win0_2.index t (0 : Fin 2) * 512 + 1 * p.val = t.val * 512 + p.val; omega
  | ⟨1, _⟩ => show win0_2.index t (1 : Fin 2) * 1 + 1 * z.val = z.val; omega
theorem emb_o (t : Fin cfg0.N) (p : Fin 512) (q : Fin 3) : ((cfg0.win 3).blk t).view.emb (ix2 p q) = ix2 (rowAt t p) q := by
  obtain ⟨-, -, -, -, -, -, e6, e7⟩ := index_facts t
  funext a; apply Fin.ext
  match a with
  | ⟨0, _⟩ => show win0_3.index t (0 : Fin 2) * 512 + 1 * p.val = t.val * 512 + p.val; omega
  | ⟨1, _⟩ => show win0_3.index t (1 : Fin 2) * 3 + 1 * q.val = q.val; omega

theorem logitRow_blk (c : Dev nD) (t : Fin cfg0.N) (p : Fin 512) :
    logitRow (Reg.iblk0 V c 0 t) (Reg.iblk0 V c 1 t) p
      = fun j : Fin 1002 => ∑ k : Fin 2048, Xa V c (ix2 (rowAt t p) k) * Wa V c (ix2 j k) := by
  funext j
  refine Finset.sum_congr rfl fun k _ => ?_
  show Xa V c (((cfg0.win 0).blk t).view.emb (ix2 p k)) * Wa V c (((cfg0.win 1).blk t).view.emb (ix2 j k)) = _
  rw [emb_x, emb_w]

theorem flushed_head (c : Dev nD) (t : Fin cfg0.N) :
    (Reg.dat0 (F := Ideal) V c).flushed 3 t
      = ((cfg0.win 3).blk t).view.read (Elt Ideal) (headArr (Xa V c) (Wa V c) (Ta V c)) := by
  show (cfg0.win 3).cut (grid0.coords t) (Reg.out0_3 (Reg.iblk0 V c 0 t) (Reg.iblk0 V c 1 t) (Reg.iblk0 V c 2 t)) = _
  unfold Reg.out0_3
  rw [View.canon_unit_zero zero_offsets, View.ld_unit_zero zero_offsets, View.ld_unit_zero zero_offsets, View.ld_unit_zero zero_offsets]
  funext j
  obtain ⟨p, q, rfl⟩ : ∃ (p : Fin 512) (q : Fin 3), j = ix2 p q := ⟨j 0, j 1, eq_ix2 j⟩
  show k0_pay1 (F := Ideal) (Reg.iblk0 V c 0 t) (Reg.iblk0 V c 1 t) (Reg.iblk0 V c 2 t) (ix2 p q)
    = headArr (Xa V c) (Wa V c) (Ta V c) (((cfg0.win 3).blk t).view.emb (ix2 p q))
  rw [emb_o]
  have ht : Reg.iblk0 V c 2 t (ix2 p 0) = Ta V c (ix2 (rowAt t p) 0) := by
    show Ta V c (((cfg0.win 2).blk t).view.emb (ix2 p 0)) = _
    rw [emb_t]
  rw [pay_col, logitRow_blk, ht]
  rfl

theorem cover_head (i : S4096x3.Idx) : ∃ t : Fin cfg0.N, (cfg0.win 3).flush t = true ∧ i ∈ ((cfg0.win 3).blk t).view.set := by
  have hi0 : (i 0).val < 4096 := idx2_lt0 i
  have hi1 : (i 1).val < 3 := idx2_lt1 i
  obtain ⟨t, ht⟩ : ∃ t : Fin cfg0.N, t.val = (i 0).val / 512 := ⟨⟨_, by show _ < grid0.N; rw [N_0]; omega⟩, rfl⟩
  obtain ⟨-, -, -, -, -, -, e6, e7⟩ := index_facts t
  refine ⟨t, flush0_3 _, ?_⟩
  show i ∈ ((View.whole main_v1).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3 ≤ (i 1).val ∧ (i 1).val < win0_3.index t (1 : Fin 2) * 3 + 3; omega

theorem arr_head (c : Dev nD) :
    (Reg.dat0 (F := Ideal) V c).arrAt 3 cfg0.N = headArr (Xa V c) (Wa V c) (Ta V c) :=
  (Reg.dat0 (F := Ideal) V c).arrAt_eq_of_cover 3 _ (fun t _ => flushed_head V c t) cover_head

theorem headOf_coe (L : Fin 1002 → EReal) (Lr : Fin 1002 → ℝ) (h : ∀ j, L j = (Lr j : EReal)) (t : BitVec 32) :
    headOf L t 0 = ((lsm Lr (tcH t) : ℝ) : EReal) ∧ headOf L t 1 = ((lsm Lr ⟨1000, by omega⟩ : ℝ) : EReal)
      ∧ headOf L t 2 = ((lsm Lr ⟨1001, by omega⟩ : ℝ) : EReal) := by
  obtain rfl : L = fun j => (Lr j : EReal) := funext h
  exact ⟨Cert.LseMath.head_form (by omega) Lr _, Cert.LseMath.head_form (by omega) Lr _, Cert.LseMath.head_form (by omega) Lr _⟩

theorem arr0_apply (c : Dev nD)
    (xr : Fin 4096 → Fin 2048 → ℝ) (whr : Fin 1002 → Fin 2048 → ℝ)
    (hx : ∀ r k, V c main_arg0 (ix2 r k) = ((xr r k : ℝ) : EReal)) (hw : ∀ j k, V c main_arg2 (ix2 j k) = ((whr j k : ℝ) : EReal)) (r : Fin 4096) :
    (Reg.dat0 (F := Ideal) V c).arrAt 3 cfg0.N (ix2 r (0 : Fin 3)) = ((Cert.Spec.lsm (fun j : Fin 1002 => ∑ k : Fin 2048, xr r k * whr j k) (Cert.Spec.tcH (V c main_v0 (ix2 r (0 : Fin 1)))) : ℝ) : EReal)
      ∧ (Reg.dat0 (F := Ideal) V c).arrAt 3 cfg0.N (ix2 r (1 : Fin 3)) = ((Cert.Spec.lsm (fun j : Fin 1002 => ∑ k : Fin 2048, xr r k * whr j k) ⟨1000, by omega⟩ : ℝ) : EReal)
      ∧ (Reg.dat0 (F := Ideal) V c).arrAt 3 cfg0.N (ix2 r (2 : Fin 3)) = ((Cert.Spec.lsm (fun j : Fin 1002 => ∑ k : Fin 2048, xr r k * whr j k) ⟨1001, by omega⟩ : ℝ) : EReal) := by
  rw [arr_head]
  exact headOf_coe _ _ (Cert.LseMath.rowDot_coe (N := 4096) (K := 2048) (C := 1002) (Xa V c) (Wa V c) xr whr hx hw r) _

end Cert.KernelIdeal.Val

end
-- ==== Proof.KI.Arr1.lean ====
import proofs.«416445_j13245679141252_2_alg».proof.Proof.KI.Reg1.Base
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem oAt1_at {n n' : ℕ} (hn : n < cfg1.N) (hn' : n' < cfg1.N) {y y' : S512x1.Idx} (h : n = n') (hy : y = y') :
    oAt1 (F := Ideal) V c n hn y = oAt1 (F := Ideal) V c n' hn' y' := by
  subst h; subst hy; rfl

theorem idx1_5 : ∀ t : Fin cfg1.N, win1_5.index t (0 : Fin 2) = t.val / 9 ∧ win1_5.index t (1 : Fin 2) = 0 :=
  (by decide +kernel : ∀ t : Fin grid1.N, _)

/-- The output array read row by row off the last class tile of each row block. -/
def G1 : S4096x1.Idx → Elt Ideal .f32 := fun i =>
  oAt1 (F := Ideal) V c (9 * ((i 0).val / 512) + 8)
    (by have h : (i 0).val < 4096 := (i 0).isLt; have hN : cfg1.N = 72 := N_1; omega)
    (ix2 (⟨(i 0).val % 512, Nat.mod_lt _ (by decide)⟩ : Fin 512) (0 : Fin 1))

/-- At a point t with t % 9 = 8 the flushed block is block t of G1. -/
theorem flushed1_5_eq (t : Fin cfg1.N) (hf : (cfg1.win 5).flush t = true) :
    (dat1 (F := Ideal) V c).flushed 5 t = ((cfg1.win 5).blk t).view.read (Elt Ideal) (G1 V c) := by
  have h8 : t.val % 9 = 8 := (flush1_5 t).mp hf
  obtain ⟨e0, e1⟩ := idx1_5 t
  show (cfg1.win 5).cut (grid1.coords t) ((dat1 (F := Ideal) V c).after 5 t) = _
  rw [after1_5]
  funext y
  have hy0 : (y 0).val < 512 := (y 0).isLt
  have hy1 : (y 1).val < 1 := (y 1).isLt
  have hemb0 : ((((cfg1.win 5).blk t).view.emb y) 0).val = t.val / 9 * 512 + (y 0).val := by
    show win1_5.index t (0 : Fin 2) * 512 + 1 * (y 0).val = _
    rw [e0]; omega
  show oAt1 (F := Ideal) V c t.val t.isLt y = G1 V c (((cfg1.win 5).blk t).view.emb y)
  unfold G1
  exact oAt1_at V c _ _ (by rw [hemb0]; omega)
    (Shape.idx_ext₂ (by show (y 0).val = ((((cfg1.win 5).blk t).view.emb y) 0).val % 512; rw [hemb0]; omega) (by show (y 1).val = 0; omega))

/-- Row r belongs to the block of point 9·(r / 512) + 8. -/
theorem arr1_row (r : Fin 4096) (hn : 9 * (r.val / 512) + 8 < cfg1.N) :
    (dat1 (F := Ideal) V c).arrAt 5 cfg1.N (ix2 r (0 : Fin 1))
      = oAt1 (F := Ideal) V c (9 * (r.val / 512) + 8) hn (ix2 (⟨r.val % 512, Nat.mod_lt _ (by decide)⟩ : Fin 512) (0 : Fin 1)) := by
  have hr : r.val < 4096 := r.isLt
  obtain ⟨t, ht⟩ : ∃ t : Fin cfg1.N, t.val = 9 * (r.val / 512) + 8 := ⟨⟨_, hn⟩, rfl⟩
  obtain ⟨e0, e1⟩ := idx1_5 t
  refine (dat1 (F := Ideal) V c).arrAt_apply_of_mem 5 (G1 V c) (flushed1_5_eq V c) cfg1.N t _ t.isLt
    ((flush1_5 t).mpr (by omega)) ?_
  show (ix2 r (0 : Fin 1) : S4096x1.Idx) ∈ ((View.whole main_v5).slice (win1_5.rect t)).set
  rw [View.set_slice_whole, Rect.mem_set_unit]
  intro a
  match a with
  | ⟨0, _⟩ => show win1_5.index t (0 : Fin 2) * 512 ≤ r.val ∧ r.val < win1_5.index t (0 : Fin 2) * 512 + 512; omega
  | ⟨1, _⟩ => show win1_5.index t (1 : Fin 2) * 1 ≤ 0 ∧ 0 < win1_5.index t (1 : Fin 2) * 1 + 1; omega

end Cert.KernelIdeal.Val

end
-- ==== Proof.KI.Val1.Blocks.lean ====
import proofs.«416445_j13245679141252_2_alg».proof.Proof.KI.Reg1.Base
import Idealize.ShloMosaic.Lib.Pipeline.Value
import Idealize.ShloMosaic.Lib.ValueIdx

set_option maxRecDepth 16384

noncomputable section

namespace Cert.KernelIdeal.Val.T1

open Cert.KernelIdeal Cert.KernelIdeal.Gen
open Idealize.ShloMosaic Idealize.ShloMosaic.ValueIdx Idealize.ShloMosaic.TcCoe

variable (V : (c : Dev nD) → (b : Ref sig .tc) → Buf (Elt Ideal) ((c : Thread nD τ).loc b)) (c : Dev nD) (t : Fin cfg1.N)

/-- The block indices of the six windows at point t: row tile t / 9, class tile t % 9. -/
theorem idx_facts1 : ∀ t : Fin cfg1.N,
    win1_0.index t (0 : Fin 2) = t.val / 9 ∧ win1_0.index t (1 : Fin 2) = 0
    ∧ win1_1.index t (0 : Fin 2) = 0 ∧ win1_1.index t (1 : Fin 2) = 0
    ∧ win1_2.index t (0 : Fin 2) = t.val % 9 ∧ win1_2.index t (1 : Fin 2) = 0
    ∧ win1_3.index t (0 : Fin 2) = t.val / 9 ∧ win1_3.index t (1 : Fin 2) = 0
    ∧ win1_4.index t (0 : Fin 2) = t.val / 9 ∧ win1_4.index t (1 : Fin 2) = 0
    ∧ win1_5.index t (0 : Fin 2) = t.val / 9 ∧ win1_5.index t (1 : Fin 2) = 0
    ∧ ((grid1.coords t) 1).val = t.val % 9 :=
  (by decide +kernel : ∀ t : Fin grid1.N, _)

theorem xb1_apply (p : Fin 512) (k : Fin 2048) (r : Fin 4096) (hr : r.val = 512 * (t.val / 9) + p.val) :
    Reg.xb1 V c t (ix2 p k) = V c main_arg0 (ix2 r k) := by
  have := idx_facts1 t
  exact congrArg (V c main_arg0) (Shape.idx_ext₂ (by show win1_0.index t 0 * 512 + 1 * p.val = r.val; omega)
    (by show win1_0.index t 1 * 2048 + 1 * k.val = k.val; omega))

theorem w1b1_apply (p : Fin 512) (k : Fin 2048) (r : Fin 512) (hr : r.val = 0 + p.val) :
    Reg.w1b1 V c t (ix2 p k) = V c main_arg3 (ix2 r k) := by
  have := idx_facts1 t
  exact congrArg (V c main_arg3) (Shape.idx_ext₂ (by show win1_1.index t 0 * 512 + 1 * p.val = r.val; omega)
    (by show win1_1.index t 1 * 2048 + 1 * k.val = k.val; omega))

theorem w2b1_apply (p : Fin 1000) (k : Fin 512) (r : Fin 9000) (hr : r.val = 1000 * (t.val % 9) + p.val) :
    Reg.w2b1 V c t (ix2 p k) = V c main_arg4 (ix2 r k) := by
  have := idx_facts1 t
  exact congrArg (V c main_arg4) (Shape.idx_ext₂ (by show win1_2.index t 0 * 1000 + 1 * p.val = r.val; omega)
    (by show win1_2.index t 1 * 512 + 1 * k.val = k.val; omega))

theorem tgb1_apply (p : Fin 512) (k : Fin 1) (r : Fin 4096) (hr : r.val = 512 * (t.val / 9) + p.val) :
    Reg.tgb1 V c t (ix2 p k) = V c main_v0 (ix2 r k) := by
  have := idx_facts1 t
  exact congrArg (V c main_v0) (Shape.idx_ext₂ (by show win1_3.index t 0 * 512 + 1 * p.val = r.val; omega)
    (by show win1_3.index t 1 * 1 + 1 * k.val = k.val; omega))

theorem cb1_apply (p : Fin 512) (k : Fin 1) (r : Fin 4096) (hr : r.val = 512 * (t.val / 9) + p.val) :
    Reg.cb1 V c t (ix2 p k) = V c main_v3 (ix2 r k) := by
  have := idx_facts1 t
  exact congrArg (V c main_v3) (Shape.idx_ext₂ (by show win1_4.index t 0 * 512 + 1 * p.val = r.val; omega)
    (by show win1_4.index t 1 * 1 + 1 * k.val = k.val; omega))

end Cert.KernelIdeal.Val.T1

end
-- ==== Proof.KI.Val1.Mat.lean ====
import proofs.«416445_j13245679141252_2_alg».proof.Proof.KI.Reg1.Base
import proofs.«416445_j13245679141252_2_alg».proof.Proof.LibMatT

set_option maxRecDepth 16384

noncomputable section

namespace Cert.KernelIdeal.Val.T1

open Cert.KernelIdeal Cert.KernelIdeal.Gen
open Idealize.ShloMosaic Idealize.ShloMosaic.ValueIdx

theorem pay3_apply (x w1 : Vec Ideal S512x2048 .f32) (p k' : Fin 512) :
    k1_pay3 (F := Ideal) x w1 (ix2 p k') = ∑ k : Fin 2048, x (ix2 p k) * w1 (ix2 k' k) := by
  unfold k1_pay3
  exact (congrFun (shapeCast_self _ _) _).trans (Cert.Lib.matmul_nt_apply (K := 2048) _ _ p k')

theorem pay7_apply (h : Vec Ideal S512x512 .bf16) (w2 : Vec Ideal S1000x512 .f32) (p : Fin 512) (c : Fin 1000) :
    k1_pay7 (F := Ideal) h w2 (ix2 p c) = ∑ k' : Fin 512, h (ix2 p k') * w2 (ix2 c k') := by
  unfold k1_pay7
  exact Cert.Lib.matmul_nt_apply (K := 512) _ _ p c

end Cert.KernelIdeal.Val.T1

end
-- ==== Proof.KI.Val1.Words.lean ====
import proofs.«416445_j13245679141252_2_alg».proof.Proof.KI.Reg1.Base
import proofs.«416445_j13245679141252_2_alg».proof.Proof.Spec
import Idealize.ShloMosaic.Lib.Pipeline.Value
import Idealize.ShloMosaic.Lib.ValueIdx
import Idealize.ShloMosaic.Lib.WordArith
import Idealize.ShloMosaic.Lib.StableHlo.Predicate

set_option maxRecDepth 16384

noncomputable section

namespace Cert.KernelIdeal.Val.T1

open Cert.KernelIdeal Cert.KernelIdeal.Gen
open Idealize.ShloMosaic Idealize.ShloMosaic.ValueIdx Cert.Spec
open Idealize.ShloMosaic.StableHlo.Predicate Idealize.ShloMosaic.WordArith

theorem select_eq_word {α : Type} (a b : BitVec 32) (x y : α) :
    Scalar.select (IntOp.cmpi .eq a b) x y = if a = b then x else y := by
  by_cases h : a = b
  · rw [if_pos h, cmpi_eq_iff.mpr h]; exact select_one x y
  · rw [if_neg h, eq_zero_of_ne_one (fun e => h (cmpi_eq_iff.mp e))]; exact select_zero x y

theorem select_slt_of_lt {α : Type} (a b : BitVec 32) (x y : α) (ha : a.toNat < 2 ^ 31) (hb : b.toNat < 2 ^ 31)
    (h : a.toNat < b.toNat) : Scalar.select (IntOp.cmpi .slt a b) x y = x := by
  rw [(slt_iff_toNat ha hb).mpr h]; exact select_one x y

/-- Tile j numbers its columns j·1000 + c; as j < 9 the word arithmetic does not wrap. -/
theorem pay8_toNat (i : grid1.Coords) (p : Fin 512) (c : Fin 1000) :
    (k1_pay8 i (ix2 p c)).toNat = (i 1).val * 1000 + c.val := by
  have e : k1_pay8 i (ix2 p c) = BitVec.ofNat 32 (i 1).val * 1000#32 + BitVec.ofNat 32 c.val := by
    unfold k1_pay8
    show IntOp.addi _ (iota .tc S512x1000 32 [1] iota_S512x1000_d1_w32 (ix2 p c)) = _
    rw [iota_single_apply]
    rfl
  have hj : (i 1).val < 9 := (i 1).isLt
  have hc := c.isLt
  rw [e, BitVec.toNat_add, BitVec.toNat_mul, BitVec.toNat_ofNat, BitVec.toNat_ofNat, BitVec.toNat_ofNat]
  omega

/-- The shifted target word t − 1000 clamped into [0, 8999]. -/
def clipw (t : BitVec 32) : BitVec 32 := IntOp.minsi 8999#32 (IntOp.maxsi 0#32 (IntOp.subi t 1000#32))

theorem pay8_eq_clipw_iff (i : grid1.Coords) (p : Fin 512) (c : Fin 1000) (t : BitVec 32) :
    k1_pay8 i (ix2 p c) = clipw t ↔ (i 1).val * 1000 + c.val = clampIdx 8999 (t - 1000#32) := by
  have h2 : 2 * (IntOp.maxsi 0#32 (IntOp.subi t 1000#32)).toNat < 2 ^ 32 := two_mul_toNat_maxsi_zero_lt _
  rw [← BitVec.toNat_inj, pay8_toNat, clipw, toNat_minsi_of_lt _ _ (by decide) (by omega), toNat_maxsi_zero]
  rfl

end Cert.KernelIdeal.Val.T1

end
-- ==== Proof.KI.Val1.Red.lean ====
import proofs.«416445_j13245679141252_2_alg».proof.Proof.KI.Reg1.Base
import proofs.«416445_j13245679141252_2_alg».proof.Proof.Spec
import proofs.«416445_j13245679141252_2_alg».proof.Proof.LibMatT
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Val.T1

open Cert.KernelIdeal Cert.KernelIdeal.Gen
open Idealize.ShloMosaic Idealize.ShloMosaic.ValueIdx Cert.Spec

theorem neg_big_eq : Named.named (F := Ideal) κ "neg_big" (φ := .f32) 0xF149F2CA#32 = (⊥ : EReal) :=
  IdealRules.named_const.ideal_named_scalar _ _ _ _ rfl

variable (i : grid1.Coords) (h : Vec Ideal S512x512 .bf16) (w2 : Vec Ideal S1000x512 .f32) (m l : Vec Ideal S512x1 .f32)
  (v : FVec Ideal S512x1000 .f32) (p : Fin 512)

theorem rowmax1000_apply :
    multiReduction (F := Ideal) .maximumf [1] S512 v 0xFF800000#32 reduces_S512x1000_S512 (.inl rfl) rfl (ix1 p)
      = rowMax (fun c : Fin 1000 => v (ix2 p c)) := by
  refine (Ideal.multiReduction_maximumf_single v 0xFF800000#32 reduces_S512x1000_S512 (.inl rfl) rfl (ix1 p)).trans ?_
  show (Finset.univ : Finset (Fin 1000)).fold max (Ideal.ofBits .f32 0xFF800000#32) _ = _
  rw [ofBits_neg_inf]
  unfold rowMax
  congr 1
  exact funext fun k => congrArg v (Shape.idx_ext₂ rfl rfl)

theorem rowsum1000_apply :
    multiReduction (F := Ideal) .add [1] S512 v 0x00000000#32 reduces_S512x1000_S512 (.inl rfl) rfl (ix1 p)
      = ∑ c : Fin 1000, v (ix2 p c) :=
  (Ideal.multiReduction_add_single v 0x00000000#32 reduces_S512x1000_S512 (.inl rfl) rfl (ix1 p)).trans
    (Finset.sum_congr rfl fun k _ => congrArg v (Shape.idx_ext₂ rfl rfl))

theorem bcast1000_apply {α : Type} (v : S512x1.Idx → α) (c : Fin 1000) :
    broadcastTo S512x1000 v broadcasts_S512x1_S512x1000 (ix2 p c) = v (ix2 p 0) :=
  broadcastTo_apply v _ _ _ fun a => match a with | ⟨0, _⟩ => rfl | ⟨1, _⟩ => rfl

theorem pay4_apply : k1_pay4 (F := Ideal) (ix2 p 0) = (⊥ : EReal) := by
  unfold k1_pay4
  exact (congrFun (shapeCast_self _ _) _).trans neg_big_eq

theorem pay5_apply : k1_pay5 (F := Ideal) (ix2 p 0) = (0 : EReal) := by
  unfold k1_pay5
  exact (congrFun (shapeCast_self _ _) _).trans Ideal.ofBits_zero_f32

theorem pay6_apply : k1_pay6 (F := Ideal) (ix2 p 0) = (0 : EReal) := by
  unfold k1_pay6
  exact (congrFun (shapeCast_self _ _) _).trans Ideal.ofBits_zero_f32

/-- Columns numbered 9000 or more are masked to −∞. -/
theorem pay9_apply (c : Fin 1000) :
    k1_pay9 (F := Ideal) i h w2 (ix2 p c)
      = Scalar.select (IntOp.cmpi .slt (k1_pay8 i (ix2 p c)) 9000#32) (k1_pay7 (F := Ideal) h w2 (ix2 p c)) (⊥ : EReal) := by
  unfold k1_pay9
  exact congrArg (Scalar.select (IntOp.cmpi .slt (k1_pay8 i (ix2 p c)) 9000#32) (k1_pay7 (F := Ideal) h w2 (ix2 p c))) neg_big_eq

theorem pay10_apply :
    k1_pay10 (F := Ideal) i h w2 m (ix2 p 0)
      = max (m (ix2 p 0)) (rowMax fun c : Fin 1000 => k1_pay9 (F := Ideal) i h w2 (ix2 p c)) := by
  unfold k1_pay10
  exact congrArg (max (m (ix2 p 0))) ((Cert.Lib.col_apply _ p 0).trans (rowmax1000_apply _ p))

theorem pay11_apply : k1_pay11 (F := Ideal) i h w2 m (ix2 p 0) = k1_pay10 (F := Ideal) i h w2 m (ix2 p 0) := by
  unfold k1_pay11
  exact congrFun (shapeCast_self _ _) _

theorem pay12_apply :
    k1_pay12 (F := Ideal) i h w2 m l (ix2 p 0)
      = Ideal.exp (m (ix2 p 0) - k1_pay10 (F := Ideal) i h w2 m (ix2 p 0)) * l (ix2 p 0)
        + ∑ c : Fin 1000, Ideal.exp (k1_pay9 (F := Ideal) i h w2 (ix2 p c) - k1_pay10 (F := Ideal) i h w2 m (ix2 p 0)) := by
  unfold k1_pay12
  refine (congrFun (shapeCast_self _ _) _).trans (congrArg (Ideal.exp (m (ix2 p 0) - k1_pay10 (F := Ideal) i h w2 m (ix2 p 0)) * l (ix2 p 0) + ·) ?_)
  refine (Cert.Lib.col_apply _ p 0).trans ((rowsum1000_apply _ p).trans (Finset.sum_congr rfl fun c _ => ?_))
  exact congrArg (fun z => Ideal.exp (k1_pay9 (F := Ideal) i h w2 (ix2 p c) - z)) (bcast1000_apply p _ c)

/-- The picked logit gains the tile's entry whose column number equals the clamped target word. -/
theorem pay1_apply (v6 : FVec Ideal S512x1000 .f32) (v10 : IVec S512x1000 32) (tg : Vec Ideal S512x1 .i32) (g : Vec Ideal S512x1 .f32) (p : Fin 512) :
    k1_pay1 (F := Ideal) v6 v10 tg g (ix2 p 0)
      = g (ix2 p 0) + ∑ c : Fin 1000, Scalar.select (IntOp.cmpi .eq (v10 (ix2 p c))
          (IntOp.minsi 8999#32 (IntOp.maxsi 0#32 (IntOp.subi (tg (ix2 p 0)) 1000#32)))) (v6 (ix2 p c)) (0 : EReal) := by
  unfold k1_pay1
  refine (congrFun (shapeCast_self _ _) _).trans (congrArg (g (ix2 p 0) + ·) ?_)
  refine (Cert.Lib.col_apply _ p 0).trans ((rowsum1000_apply _ p).trans (Finset.sum_congr rfl fun c _ => ?_))
  exact congrArg₂ (fun b z => Scalar.select (IntOp.cmpi .eq (v10 (ix2 p c)) b) (v6 (ix2 p c)) z)
    ((bcast1000_apply p _ c).trans (congrArg (fun t => IntOp.minsi 8999#32 (IntOp.maxsi 0#32 (IntOp.subi t 1000#32)))
      (congrFun (shapeCast_self _ _) _))) Ideal.ofBits_zero_f32

theorem pay2_apply (m l cb g : Vec Ideal S512x1 .f32) (p : Fin 512) :
    k1_pay2 (F := Ideal) m l cb g (ix2 p 0)
      = cb (ix2 p 0) + (g (ix2 p 0) - (m (ix2 p 0) + Ideal.log (l (ix2 p 0)))) := by
  unfold k1_pay2
  exact congrArg (· + (g (ix2 p 0) - (m (ix2 p 0) + Ideal.log (l (ix2 p 0))))) (congrFun (shapeCast_self _ _) _)

end Cert.KernelIdeal.Val.T1

end
-- ==== Proof.KI.Val1.Tile.lean ====
import proofs.«416445_j13245679141252_2_alg».proof.Proof.LseMath
import proofs.«416445_j13245679141252_2_alg».proof.Proof.KI.Val1.Mat
import proofs.«416445_j13245679141252_2_alg».proof.Proof.KI.Val1.Words
import proofs.«416445_j13245679141252_2_alg».proof.Proof.KI.Val1.Red

set_option maxRecDepth 16384

noncomputable section

namespace Cert.KernelIdeal.Val.T1

open Cert.KernelIdeal Cert.KernelIdeal.Gen
open Idealize.ShloMosaic Idealize.ShloMosaic.ValueIdx Cert.Spec

/-- Row p's maximum, sum and pick as carried from tile to tile. -/
def rowAcc (s : Reg.St1 Ideal) (p : Fin 512) : LseMath.Acc := ⟨s.2.1 (ix2 p 0), s.2.2.1 (ix2 p 0), s.2.2.2 (ix2 p 0)⟩

/-- B is A after tile j (1000 of 9000 columns) of the online log-sum-exp recurrence with logits L and picked column idx. -/
def TileStep (L : ℕ → ℝ) (idx j : ℕ) (A B : LseMath.Acc) : Prop :=
  B.m = max A.m (rowMax fun c : Fin 1000 => if j * 1000 + c.val < 9000 then ((L (j * 1000 + c.val) : ℝ) : EReal) else ⊥) ∧
  B.l = Ideal.exp (A.m - B.m) * A.l
      + ∑ c : Fin 1000, Ideal.exp ((if j * 1000 + c.val < 9000 then ((L (j * 1000 + c.val) : ℝ) : EReal) else ⊥) - B.m) ∧
  B.g = A.g + ∑ c : Fin 1000, (if j * 1000 + c.val = idx then ((L (j * 1000 + c.val) : ℝ) : EReal) else 0)

/-- Real operands give real logits and none of the 9000 columns is masked, so the tile step at row p is the recurrence's. -/
theorem tile_row (i : grid1.Coords) (j : ℕ) (hij : (i 1).val = j) (w2 : Vec Ideal S1000x512 .f32) (tg : Vec Ideal S512x1 .i32)
    (s : Reg.St1 Ideal) (p : Fin 512) (hr : Fin 512 → ℝ) (w2r' : Fin 1000 → Fin 512 → ℝ) (L : ℕ → ℝ)
    (hh : ∀ k', s.1 (ix2 p k') = ((hr k' : ℝ) : EReal)) (hw : ∀ c k', w2 (ix2 c k') = ((w2r' c k' : ℝ) : EReal))
    (hL : ∀ c : Fin 1000, L (j * 1000 + c.val) = ∑ k' : Fin 512, hr k' * w2r' c k') :
    TileStep L (clampIdx 8999 (tg (ix2 p 0) - 1000#32)) j (rowAcc s p) (rowAcc (Reg.step1 i w2 tg s) p) := by
  have hj : (i 1).val < 9 := (i 1).isLt
  have h7 : ∀ c : Fin 1000, k1_pay7 (F := Ideal) s.1 w2 (ix2 p c) = ((L (j * 1000 + c.val) : ℝ) : EReal) := fun c => by
    rw [pay7_apply, hL c, LseMath.coe_sum]
    exact Finset.sum_congr rfl fun k' _ => by rw [hh, hw, EReal.coe_mul]
  have h9 : ∀ c : Fin 1000, k1_pay9 (F := Ideal) i s.1 w2 (ix2 p c)
      = (if j * 1000 + c.val < 9000 then ((L (j * 1000 + c.val) : ℝ) : EReal) else ⊥) := fun c => by
    have hc := c.isLt
    have ht := pay8_toNat i p c
    rw [pay9_apply, select_slt_of_lt _ _ _ _ (by rw [ht]; omega) (by decide) (by rw [ht]; show _ < 9000; omega), h7,
      if_pos (by omega)]
  have hm : (Reg.step1 i w2 tg s).2.1 (ix2 p 0) = k1_pay10 (F := Ideal) i s.1 w2 s.2.1 (ix2 p 0) :=
    pay11_apply i s.1 w2 s.2.1 p
  unfold TileStep rowAcc
  dsimp only
  refine ⟨?_, ?_, ?_⟩
  · rw [hm, pay10_apply]
    simp only [h9]
  · rw [hm]
    refine (pay12_apply i s.1 w2 s.2.1 s.2.2.1 p).trans ?_
    simp only [h9]
  · refine (pay1_apply (k1_pay7 s.1 w2) (k1_pay8 i) tg s.2.2.2 p).trans ?_
    refine congrArg (s.2.2.2 (ix2 p 0) + ·) (Finset.sum_congr rfl fun c _ => ?_)
    rw [select_eq_word]
    have hiff := pay8_eq_clipw_iff i p c (tg (ix2 p 0))
    rw [hij] at hiff
    exact if_congr hiff (h7 c) rfl

end Cert.KernelIdeal.Val.T1

end
-- ==== Proof.KI.Val1.Row.lean ====
import proofs.«416445_j13245679141252_2_alg».proof.Proof.KI.Val1.Blocks
import proofs.«416445_j13245679141252_2_alg».proof.Proof.KI.Val1.Tile

set_option maxRecDepth 16384

noncomputable section

namespace Cert.KernelIdeal.Val.T1

open Cert.KernelIdeal Cert.KernelIdeal.Gen
open Idealize.ShloMosaic Idealize.ShloMosaic.ValueIdx Cert.Spec
open Idealize.ShloMosaic.TcCoe

variable (V : (c : Dev nD) → (b : Ref sig .tc) → Buf (Elt Ideal) ((c : Thread nD τ).loc b)) (c : Dev nD)
  (xr : Fin 4096 → Fin 2048 → ℝ) (w1r : Fin 512 → Fin 2048 → ℝ) (w2r : Fin 9000 → Fin 512 → ℝ) (cr : Fin 4096 → ℝ)

/-- Row r's two-stage logits indexed by ℕ, zero from 9000 on. -/
def Lrow (r : Fin 4096) (n : ℕ) : ℝ :=
  if h : n < 9000 then ∑ k' : Fin 512, (∑ k : Fin 2048, xr r k * w1r k' k) * w2r ⟨n, h⟩ k' else 0

/-- Row p's carried values before tile j of row tile i8. -/
def rowSeq (i8 : ℕ) (p : Fin 512) : ℕ → LseMath.Acc
  | 0 => ⟨⊥, 0, 0⟩
  | j + 1 => if h : 9 * i8 + j < cfg1.N then rowAcc (Reg.sAt1 V c (9 * i8 + j) h) p else ⟨⊥, 0, 0⟩

variable (hx : ∀ r k, V c main_arg0 (ix2 r k) = ((xr r k : ℝ) : EReal)) (hw1 : ∀ j k, V c main_arg3 (ix2 j k) = ((w1r j k : ℝ) : EReal))
  (hw2 : ∀ j k, V c main_arg4 (ix2 j k) = ((w2r j k : ℝ) : EReal)) (hc : ∀ r : Fin 4096, V c main_v3 (ix2 r (0 : Fin 1)) = ((cr r : ℝ) : EReal))

include hw2 in
/-- A point whose class tile is j steps any carried state whose projected row is row r's by the recurrence's step for tile j. -/
theorem step_row (t : Fin cfg1.N) (j : ℕ) (hj : t.val % 9 = j) (p : Fin 512) (r : Fin 4096) (hr : r.val = 512 * (t.val / 9) + p.val)
    (s : Reg.St1 Ideal) (hs : ∀ k', s.1 (ix2 p k') = ((∑ k : Fin 2048, xr r k * w1r k' k : ℝ) : EReal)) :
    TileStep (Lrow xr w1r w2r r) (tc0 (V c main_v0 (ix2 r (0 : Fin 1)))).val j (rowAcc s p)
      (rowAcc (Reg.step1 (grid1.coords t) (Reg.w2b1 V c t) (Reg.tgb1 V c t) s) p) := by
  have hlc : ∀ cc : Fin 1000, j * 1000 + cc.val < 9000 := fun cc => by have := cc.isLt; omega
  rw [← tgb1_apply V c t p 0 r hr]
  exact tile_row _ j ((idx_facts1 t).2.2.2.2.2.2.2.2.2.2.2.2.trans hj) _ _ s p (fun k' => ∑ k : Fin 2048, xr r k * w1r k' k)
    (fun cc k' => w2r ⟨_, hlc cc⟩ k') _ hs
    (fun cc k' => (w2b1_apply V c t cc k' ⟨_, hlc cc⟩ (by show j * 1000 + cc.val = _; omega)).trans (hw2 _ _))
    fun cc => dif_pos (hlc cc)

include hx hw1

theorem proj_row (t : Fin cfg1.N) (p k' : Fin 512) (r : Fin 4096) (hr : r.val = 512 * (t.val / 9) + p.val) :
    k1_pay3 (F := Ideal) (Reg.xb1 V c t) (Reg.w1b1 V c t) (ix2 p k') = ((∑ k : Fin 2048, xr r k * w1r k' k : ℝ) : EReal) := by
  rw [pay3_apply, LseMath.coe_sum]
  exact Finset.sum_congr rfl fun k _ => by
    rw [xb1_apply V c t p k r hr, w1b1_apply V c t k' k k' (by omega), hx, hw1, EReal.coe_mul]

/-- By induction on the point: tile 0 writes the projection, every other tile leaves it. -/
theorem proj_inv : ∀ (n : ℕ) (hn : n < cfg1.N) (p k' : Fin 512) (r : Fin 4096) (hr : r.val = 512 * (n / 9) + p.val),
      (Reg.sAt1 V c n hn).1 (ix2 p k') = ((∑ k : Fin 2048, xr r k * w1r k' k : ℝ) : EReal)
  | 0, hn, p, k', r, hr => proj_row V c xr w1r hx hw1 ⟨0, hn⟩ p k' r hr
  | n + 1, hn, p, k', r, hr => by
    by_cases h0 : (n + 1) % 9 = 0
    · rw [show Reg.sAt1 V c (n + 1) hn = _ from Reg.sAt1_A V c ⟨n + 1, hn⟩ h0]
      exact proj_row V c xr w1r hx hw1 ⟨n + 1, hn⟩ p k' r hr
    · rw [show Reg.sAt1 V c (n + 1) hn = _ from Reg.sAt1_BC V c ⟨n + 1, hn⟩ h0]
      exact proj_inv n (Nat.lt_of_succ_lt hn) p k' r (by omega)

include hw2

theorem rowSeq_step (i8 : ℕ) (hn : 9 * i8 + 8 < cfg1.N) (p : Fin 512) (r : Fin 4096) (hr : r.val = 512 * i8 + p.val) (j : ℕ) (hj : j < 9) :
    TileStep (Lrow xr w1r w2r r) (tc0 (V c main_v0 (ix2 r (0 : Fin 1)))).val j (rowSeq V c i8 p j) (rowSeq V c i8 p (j + 1)) := by
  have hlt : 9 * i8 + j < cfg1.N := by omega
  have hst := step_row V c xr w1r w2r hw2 ⟨_, hlt⟩ j (by show (9 * i8 + j) % 9 = j; omega) p r
    (by show r.val = 512 * ((9 * i8 + j) / 9) + p.val; omega)
  rw [show rowSeq V c i8 p (j + 1) = _ from dif_pos hlt]
  cases j with
  | zero =>
    rw [show Reg.sAt1 V c (9 * i8 + 0) hlt = _ from Reg.sAt1_A V c ⟨_, hlt⟩ (by show (9 * i8 + 0) % 9 = 0; omega)]
    have h := hst (Reg.init1 (Reg.xb1 V c ⟨_, hlt⟩) (Reg.w1b1 V c ⟨_, hlt⟩)) fun k' => proj_row V c xr w1r hx hw1 ⟨_, hlt⟩ p k' r (by show r.val = 512 * ((9 * i8 + 0) / 9) + p.val; omega)
    rw [show rowAcc (Reg.init1 _ _) p = ⟨⊥, 0, 0⟩ from by
      show LseMath.Acc.mk (k1_pay4 (F := Ideal) (ix2 p 0)) (k1_pay5 (F := Ideal) (ix2 p 0)) (k1_pay6 (F := Ideal) (ix2 p 0)) = _
      rw [pay4_apply, pay5_apply, pay6_apply]] at h
    exact h
  | succ j' =>
    rw [show Reg.sAt1 V c (9 * i8 + (j' + 1)) hlt = _ from
        Reg.sAt1_BC V c ⟨_, hlt⟩ (by show ¬(9 * i8 + (j' + 1)) % 9 = 0; omega),
      show rowSeq V c i8 p (j' + 1) = _ from dif_pos (by omega)]
    exact hst _ fun k' => proj_inv V c xr w1r hx hw1 _ _ p k' r (by show r.val = 512 * ((9 * i8 + j') / 9) + p.val; omega)

include hc

/-- Nine recurrence steps from (−∞, 0, 0) end at the row's log-softmax, so the stored block is c[r] plus it. -/
theorem oAt1_row (i8 : ℕ) (hn : 9 * i8 + 8 < cfg1.N) (p : Fin 512) (r : Fin 4096) (hr : r.val = 512 * i8 + p.val) :
    Reg.oAt1 V c (9 * i8 + 8) hn (ix2 p (0 : Fin 1))
      = ((cr r + lsm (fun j : Fin 9000 => ∑ k' : Fin 512, (∑ k : Fin 2048, xr r k * w1r k' k) * w2r j k') (tc0 (V c main_v0 (ix2 r (0 : Fin 1)))) : ℝ) : EReal) := by
  have key := LseMath.online_final 9 1000 9000 (by norm_num) (by norm_num) (by norm_num) (by norm_num) (Lrow xr w1r w2r r)
    (tc0 (V c main_v0 (ix2 r (0 : Fin 1)))).val (tc0 (V c main_v0 (ix2 r (0 : Fin 1)))).isLt (rowSeq V c i8 p) rfl
    (rowSeq_step V c xr w1r w2r hx hw1 hw2 i8 hn p r hr) (cr r)
  have hf : (fun i : Fin 9000 => Lrow xr w1r w2r r i.val)
      = fun j : Fin 9000 => ∑ k' : Fin 512, (∑ k : Fin 2048, xr r k * w1r k' k) * w2r j k' := funext fun i => dif_pos i.isLt
  rw [show rowSeq V c i8 p 9 = _ from dif_pos hn, hf] at key
  show Reg.fin1 (Reg.cb1 V c ⟨9 * i8 + 8, hn⟩) (Reg.sAt1 V c (9 * i8 + 8) hn) (ix2 p 0) = _
  refine (pay2_apply _ _ _ _ p).trans ?_
  rw [cb1_apply V c ⟨_, hn⟩ p 0 r (by show r.val = 512 * ((9 * i8 + 8) / 9) + p.val; omega), hc]
  exact key

end Cert.KernelIdeal.Val.T1

end
-- ==== Proof.KI.Val1.lean ====
import proofs.«416445_j13245679141252_2_alg».proof.Proof.KI.Arr1
import proofs.«416445_j13245679141252_2_alg».proof.Proof.KI.Val1.Row

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

/-- Row r of the region's result is c[r] plus the log-softmax of row r's 9000 two-stage logits at the clamped shifted target. -/
theorem arr1_apply (V : (c : Dev nD) → (b : Ref sig .tc) → Buf (Elt Ideal) ((c : Thread nD τ).loc b)) (c : Dev nD)
    (xr : Fin 4096 → Fin 2048 → ℝ) (w1r : Fin 512 → Fin 2048 → ℝ) (w2r : Fin 9000 → Fin 512 → ℝ) (cr : Fin 4096 → ℝ)
    (hx : ∀ r k, V c main_arg0 (ix2 r k) = ((xr r k : ℝ) : EReal)) (hw1 : ∀ j k, V c main_arg3 (ix2 j k) = ((w1r j k : ℝ) : EReal))
    (hw2 : ∀ j k, V c main_arg4 (ix2 j k) = ((w2r j k : ℝ) : EReal)) (hc : ∀ r : Fin 4096, V c main_v3 (ix2 r (0 : Fin 1)) = ((cr r : ℝ) : EReal)) (r : Fin 4096) :
    (Reg.dat1 (F := Ideal) V c).arrAt 5 cfg1.N (ix2 r (0 : Fin 1))
      = ((cr r + Cert.Spec.lsm (fun j : Fin 9000 => ∑ k' : Fin 512, (∑ k : Fin 2048, xr r k * w1r k' k) * w2r j k') (Cert.Spec.tc0 (V c main_v0 (ix2 r (0 : Fin 1)))) : ℝ) : EReal) := by
  have hN : cfg1.N = 72 := N_1
  have hr := r.isLt
  have hn : 9 * (r.val / 512) + 8 < cfg1.N := by omega
  exact (arr1_row V c r hn).trans (T1.oAt1_row V c xr w1r w2r cr hx hw1 hw2 hc (r.val / 512) hn ⟨r.val % 512, Nat.mod_lt _ (by decide)⟩ r
    (by show r.val = 512 * (r.val / 512) + r.val % 512; omega))

end Cert.KernelIdeal.Val

end
-- ==== Proof.KI.Val2.Pay.lean ====
import proofs.«416445_j13245679141252_2_alg».proof.Proof.Gen.KernelIdeal.Skeleton
import proofs.«416445_j13245679141252_2_alg».proof.Proof.Spec
import proofs.«416445_j13245679141252_2_alg».proof.Proof.LibMatT
import Idealize.ShloMosaic.Lib.ValueIdx
import Idealize.ShloMosaic.Lib.Pipeline.Value
import Idealize.ShloMosaic.PureOps.Ideal.Laws
import Idealize.ShloMosaic.Lib.WordArith
import Idealize.ShloMosaic.PureOps.IdealRules

noncomputable section

namespace Cert.KernelIdeal.Val.T2

open Cert.KernelIdeal Cert.KernelIdeal.Gen
open Idealize.ShloMosaic Idealize.ShloMosaic.ValueIdx Idealize.ShloMosaic.WordArith

theorem pay3_apply (x : Vec Ideal S512x2048 .f32) (w1 : Vec Ideal S128x2048 .f32) (p : Fin 512) (k' : Fin 128) :
    k2_pay3 x w1 (ix2 p k') = ∑ k : Fin 2048, x (ix2 p k) * w1 (ix2 k' k) := by
  unfold k2_pay3
  exact (congrFun (shapeCast_self _ _) _).trans (Cert.Lib.matmul_nt_apply (truncf .bf16 x bitsLt_bf16_f32) (truncf .bf16 w1 bitsLt_bf16_f32) p k')

theorem neg_big : Named.named (F := Ideal) Cert.KernelIdeal.κ "neg_big" (φ := .f32) 0xF149F2CA#32 = (⊥ : EReal) :=
  IdealRules.named_const.ideal_named_scalar _ _ _ _ rfl

theorem pay4_apply (j : S512x1.Idx) : k2_pay4 (F := Ideal) j = ⊥ := by
  unfold k2_pay4
  exact (congrFun (shapeCast_self _ _) j).trans neg_big

theorem pay5_apply (j : S512x1.Idx) : k2_pay5 (F := Ideal) j = 0 := by
  unfold k2_pay5
  exact (congrFun (shapeCast_self _ _) j).trans Ideal.ofBits_zero_f32

theorem pay6_apply (j : S512x1.Idx) : k2_pay6 (F := Ideal) j = 0 := pay5_apply j

theorem col_cast {α : Type} (v : S512.Idx → α) (h : S512.ShapeCasts S512x1) (p : Fin 512) (z : Fin 1) :
    shapeCast S512x1 v h (ix2 p z) = v (ix1 p) := by
  refine shapeCast_apply v h (ix2 p z) (ix1 p) ?_
  rw [Shape.rowMajor_val_two, Shape.rowMajor_val_one]
  show p.val = p.val * 1 + z.val
  omega

theorem col_bcast {α : Type} (v : S512x1.Idx → α) (h : S512x1.Broadcasts S512x4096) (p : Fin 512) (c : Fin 4096) :
    broadcastTo S512x4096 v h (ix2 p c) = v (ix2 p (0 : Fin 1)) :=
  broadcastTo_apply v h (ix2 p c) (ix2 p (0 : Fin 1)) fun a => match a with
    | ⟨0, _⟩ => rfl
    | ⟨1, _⟩ => rfl

theorem pay8_apply (i : grid2.Coords) (p : Fin 512) (c : Fin 4096) :
    k2_pay8 i (ix2 p c) = BitVec.ofNat 32 ((i 1).val * 4096 + c.val) := by
  unfold k2_pay8
  dsimp only
  show IntOp.addi (Scalar.muli (BitVec.ofNat 32 (i 1).val) 4096#32) (iota .tc S512x4096 32 [1] iota_S512x4096_d1_w32 (ix2 p c)) = _
  rw [iota_single_apply]
  show BitVec.ofNat 32 (i 1).val * 4096#32 + BitVec.ofNat 32 c.val = _
  apply BitVec.eq_of_toNat_eq
  simp only [BitVec.toNat_add, BitVec.toNat_mul, BitVec.toNat_ofNat]
  omega

variable (i : grid2.Coords) (h : Vec Ideal S512x128 .bf16) (w2 : Vec Ideal S4096x128 .f32) (m l : Vec Ideal S512x1 .f32) (p : Fin 512)

theorem pay7_apply (c : Fin 4096) :
    k2_pay7 h w2 (ix2 p c) = ∑ k' : Fin 128, h (ix2 p k') * w2 (ix2 c k') := by
  unfold k2_pay7
  exact Cert.Lib.matmul_nt_apply h (truncf .bf16 w2 bitsLt_bf16_f32) p c

theorem select_slt {α : Type} (n : ℕ) (hn : n < 2 ^ 31) (a b : α) :
    Scalar.select (IntOp.cmpi .slt (BitVec.ofNat 32 n) 40257#32) a b = if n < 40257 then a else b := by
  have e := toInt_ofNat_small n hn
  have e2 : (40257#32 : BitVec 32).toInt = 40257 := by decide
  unfold IntOp.cmpi
  dsimp only
  by_cases h : n < 40257
  · rw [BitVec.slt_iff_toInt_lt.mpr (by rw [e, e2]; omega), if_pos h]; exact select_one a b
  · have hs : (BitVec.ofNat 32 n).slt 40257#32 = false := Bool.eq_false_iff.mpr fun hh => by
      have := BitVec.slt_iff_toInt_lt.mp hh; rw [e, e2] at this; omega
    rw [hs, if_neg h]; exact select_zero a b

theorem select_eq_word {α : Type} (n : ℕ) (hn : n < 2 ^ 32) (w : BitVec 32) (a b : α) :
    Scalar.select (IntOp.cmpi .eq (BitVec.ofNat 32 n) w) a b = if n = w.toNat then a else b := by
  unfold IntOp.cmpi
  dsimp only
  by_cases h : n = w.toNat
  · rw [show BitVec.ofNat 32 n = w from BitVec.eq_of_toNat_eq (by rw [toNat_ofNat_of_lt n hn, h]), beq_self_eq_true, if_pos h]
    exact select_one a b
  · have hs : (BitVec.ofNat 32 n == w) = false :=
      Bool.eq_false_iff.mpr fun hh => h (by rw [← eq_of_beq hh, toNat_ofNat_of_lt n hn])
    rw [hs, if_neg h]; exact select_zero a b

theorem pay9_apply (hi : (i 1).val < 10) (c : Fin 4096) :
    k2_pay9 i h w2 (ix2 p c)
      = if (i 1).val * 4096 + c.val < 40257 then k2_pay7 h w2 (ix2 p c) else ⊥ := by
  unfold k2_pay9
  show Scalar.select (IntOp.cmpi .slt (k2_pay8 i (ix2 p c)) 40257#32) (k2_pay7 h w2 (ix2 p c))
      (Named.named (F := Ideal) Cert.KernelIdeal.κ "neg_big" (φ := .f32) 0xF149F2CA#32) = _
  rw [pay8_apply, neg_big]
  exact select_slt _ (by have := c.isLt; omega) _ _

theorem lift_row (p : Fin 512) (c : Fin 4096) : reduces_S512x4096_S512.lift (ix1 p) c = ix2 p c :=
  Shape.idx_ext₂ rfl rfl

theorem pay10_apply :
    k2_pay10 i h w2 m (ix2 p (0 : Fin 1))
      = max (m (ix2 p (0 : Fin 1))) (Cert.Spec.rowMax fun c : Fin 4096 => k2_pay9 i h w2 (ix2 p c)) := by
  unfold k2_pay10
  refine (maximumf_apply _ _ _).trans (congrArg (max (m (ix2 p (0 : Fin 1)))) ((col_cast _ _ p 0).trans ?_))
  refine (Ideal.multiReduction_maximumf_single (k2_pay9 i h w2) 0xFF800000#32 reduces_S512x4096_S512 (.inl rfl) rfl (ix1 p)).trans ?_
  unfold Cert.Spec.rowMax
  show (Finset.univ : Finset (Fin 4096)).fold max (Ideal.ofBits .f32 0xFF800000#32) _ = _
  rw [Cert.Spec.ofBits_neg_inf]
  exact congrArg ((Finset.univ : Finset (Fin 4096)).fold max ⊥) (funext fun c => congrArg (k2_pay9 i h w2) (lift_row p c))

theorem pay11_apply :
    k2_pay11 i h w2 m (ix2 p (0 : Fin 1)) = k2_pay10 i h w2 m (ix2 p (0 : Fin 1)) := by
  unfold k2_pay11
  exact congrFun (shapeCast_self _ _) _

/-- A sum over the lanes stored as a column plus a column, read at row p. -/
theorem colsum_apply (a : FVec Ideal S512x1 .f32) (f : FVec Ideal S512x4096 .f32) (p : Fin 512) :
    shapeCast S512x1 (addf a (shapeCast S512x1 (multiReduction .add [1] S512 f 0x00000000#32 reduces_S512x4096_S512 (.inl rfl) rfl)
        shapeCasts_S512_S512x1)) shapeCasts_S512x1_S512x1 (ix2 p (0 : Fin 1))
      = a (ix2 p (0 : Fin 1)) + ∑ c : Fin 4096, f (ix2 p c) :=
  (congrFun (shapeCast_self _ _) _).trans (congrArg (a (ix2 p (0 : Fin 1)) + ·) ((col_cast _ _ p 0).trans
    ((Ideal.multiReduction_add_single f _ reduces_S512x4096_S512 (.inl rfl) rfl (ix1 p)).trans
      (Finset.sum_congr rfl fun c _ => congrArg f (lift_row p c)))))

theorem pay12_apply :
    k2_pay12 i h w2 m l (ix2 p (0 : Fin 1))
      = Ideal.exp (m (ix2 p (0 : Fin 1)) - k2_pay10 i h w2 m (ix2 p (0 : Fin 1))) * l (ix2 p (0 : Fin 1))
        + ∑ c : Fin 4096, Ideal.exp (k2_pay9 i h w2 (ix2 p c) - k2_pay10 i h w2 m (ix2 p (0 : Fin 1))) := by
  unfold k2_pay12
  refine (colsum_apply _ _ p).trans (congrArg₂ (· + ·) rfl (Finset.sum_congr rfl fun c _ => ?_))
  exact congrArg (fun z => Ideal.exp (k2_pay9 i h w2 (ix2 p c) - z)) (col_bcast _ _ p c)

def clipWord (t : BitVec 32) : BitVec 32 := IntOp.minsi 40256#32 (IntOp.maxsi 0#32 (IntOp.subi t 10000#32))

theorem pay1_apply (v6 : FVec Ideal S512x4096 .f32) (v10 : IVec S512x4096 32) (tg : Vec Ideal S512x1 .i32) (g : Vec Ideal S512x1 .f32) :
    k2_pay1 v6 v10 tg g (ix2 p (0 : Fin 1))
      = g (ix2 p (0 : Fin 1)) + ∑ c : Fin 4096,
          Scalar.select (IntOp.cmpi .eq (v10 (ix2 p c)) (clipWord (tg (ix2 p (0 : Fin 1))))) (v6 (ix2 p c)) (0 : EReal) := by
  unfold k2_pay1
  refine (colsum_apply _ _ p).trans (congrArg₂ (· + ·) rfl (Finset.sum_congr rfl fun c _ => ?_))
  refine (select_apply _ _ _ _).trans (congrArg₂ (fun a b => Scalar.select a (v6 (ix2 p c)) b) ?_ Ideal.ofBits_zero_f32)
  refine congrArg (IntOp.cmpi .eq (v10 (ix2 p c))) ((col_bcast _ _ p c).trans ?_)
  unfold clipWord
  show IntOp.minsi 40256#32 (IntOp.maxsi 0#32 (IntOp.subi (shapeCast S512x1 tg shapeCasts_S512x1_S512x1 (ix2 p (0 : Fin 1))) 10000#32)) = _
  rw [shapeCast_self]

theorem pay2_apply (m l cb g : Vec Ideal S512x1 .f32) (j : S512x1.Idx) :
    k2_pay2 m l cb g j = cb j + (g j - (m j + Ideal.log (l j))) := by
  unfold k2_pay2
  show shapeCast S512x1 cb shapeCasts_S512x1_S512x1 j + (g j - (m j + Ideal.log (l j))) = _
  rw [shapeCast_self]

end Cert.KernelIdeal.Val.T2

end
-- ==== Proof.KI.Val2.Blk.lean ====
import proofs.«416445_j13245679141252_2_alg».proof.Proof.KI.Reg2.Defs
import Idealize.ShloMosaic.Lib.ValueIdx
import Idealize.ShloMosaic.Lib.Pipeline.Value

noncomputable section

namespace Cert.KernelIdeal.Val.T2

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem idx_facts2 : ∀ t : Fin grid2.N,
    win2_0.index t 0 = t.val / 10 ∧ win2_0.index t 1 = 0
    ∧ win2_1.index t 0 = 0 ∧ win2_1.index t 1 = 0
    ∧ win2_2.index t 0 = t.val % 10 ∧ win2_2.index t 1 = 0
    ∧ win2_3.index t 0 = t.val / 10 ∧ win2_3.index t 1 = 0
    ∧ win2_4.index t 0 = t.val / 10 ∧ win2_4.index t 1 = 0
    ∧ win2_5.index t 0 = t.val / 10 ∧ win2_5.index t 1 = 0
    ∧ ((grid2.coords t) 1).val = t.val % 10 := by decide +kernel

theorem xblk_apply (c : Dev nD) (t : Fin cfg2.N) (p : Fin 512) (k : Fin 2048) (r : Fin 4096) (hr : r.val = 512 * (t.val / 10) + p.val) :
    (iblk2 V c 0 t : Vec Ideal S512x2048 .f32) (ix2 p k) = (V c main_arg0 : S4096x2048.Idx → EReal) (ix2 r k) := by
  have := idx_facts2 t
  exact congrArg (V c main_arg0 : S4096x2048.Idx → EReal) <| Shape.idx_ext₂ (by show win2_0.index t 0 * 512 + 1 * p.val = r.val; omega)
    (by show win2_0.index t 1 * 2048 + 1 * k.val = k.val; omega)

theorem w1blk_apply (c : Dev nD) (t : Fin cfg2.N) (k' : Fin 128) (k : Fin 2048) :
    (iblk2 V c 1 t : Vec Ideal S128x2048 .f32) (ix2 k' k) = (V c main_arg5 : S128x2048.Idx → EReal) (ix2 k' k) := by
  have := idx_facts2 t
  exact congrArg (V c main_arg5 : S128x2048.Idx → EReal) <| Shape.idx_ext₂ (by show win2_1.index t 0 * 128 + 1 * k'.val = k'.val; omega)
    (by show win2_1.index t 1 * 2048 + 1 * k.val = k.val; omega)

theorem tgblk_apply (c : Dev nD) (t : Fin cfg2.N) (p : Fin 512) (r : Fin 4096) (hr : r.val = 512 * (t.val / 10) + p.val) :
    (iblk2 V c 3 t : Vec Ideal S512x1 .i32) (ix2 p (0 : Fin 1)) = (V c main_v0 : S4096x1.Idx → BitVec 32) (ix2 r (0 : Fin 1)) := by
  have := idx_facts2 t
  exact congrArg (V c main_v0 : S4096x1.Idx → BitVec 32) <| Shape.idx_ext₂ (by show win2_3.index t 0 * 512 + 1 * p.val = r.val; omega)
    (by show win2_3.index t 1 * 1 + 1 * 0 = 0; omega)

theorem cblk_apply (c : Dev nD) (t : Fin cfg2.N) (p : Fin 512) (r : Fin 4096) (hr : r.val = 512 * (t.val / 10) + p.val) :
    (iblk2 V c 4 t : Vec Ideal S512x1 .f32) (ix2 p (0 : Fin 1)) = (V c main_v4 : S4096x1.Idx → EReal) (ix2 r (0 : Fin 1)) := by
  have := idx_facts2 t
  exact congrArg (V c main_v4 : S4096x1.Idx → EReal) <| Shape.idx_ext₂ (by show win2_4.index t 0 * 512 + 1 * p.val = r.val; omega)
    (by show win2_4.index t 1 * 1 + 1 * 0 = 0; omega)

theorem xsize2_2 : ∀ t : Fin grid2.N,
    win2_2.xsize (grid2.coords t) 0 = min 4096 (40257 - 4096 * (t.val % 10)) ∧ win2_2.xsize (grid2.coords t) 1 = 128 := by
  decide +kernel

theorem w2blk_apply (c : Dev nD) (t : Fin cfg2.N) (cix : Fin 4096) (k' : Fin 128) (n : Fin 40257)
    (hn : n.val = 4096 * (t.val % 10) + cix.val) :
    w2blk V c t (ix2 cix k') = (V c main_arg6 : S40257x128.Idx → EReal) (ix2 n k') := by
  have := idx_facts2 t
  have := xsize2_2 t
  have := n.isLt
  have := k'.isLt
  have hm : win2_2.moved (grid2.coords t) (ix2 cix k') = true := (win2_2.moved_iff _ _).mpr fun a => by
    match a with
    | ⟨0, _⟩ => show cix.val < win2_2.xsize (grid2.coords t) 0; omega
    | ⟨1, _⟩ => show k'.val < win2_2.xsize (grid2.coords t) 1; omega
  unfold w2blk Window.fill
  rw [dif_pos hm]
  exact congrArg (V c main_arg6 : S40257x128.Idx → EReal) <| Shape.idx_ext₂ (by show win2_2.index t 0 * 4096 + 1 * cix.val = n.val; omega)
    (by show win2_2.index t 1 * 128 + 1 * k'.val = k'.val; omega)

end Cert.KernelIdeal.Val.T2

end
-- ==== Proof.KI.Val2.Step.lean ====
import proofs.«416445_j13245679141252_2_alg».proof.Proof.KI.Reg2.Defs
import proofs.«416445_j13245679141252_2_alg».proof.Proof.KI.Val2.Pay
import proofs.«416445_j13245679141252_2_alg».proof.Proof.LseMath

noncomputable section

namespace Cert.KernelIdeal.Val.T2

open Cert.KernelIdeal Cert.KernelIdeal.Gen
open Idealize.ShloMosaic Idealize.ShloMosaic.ValueIdx Idealize.ShloMosaic.WordArith
open Cert.Spec

theorem clipWord_toNat (t : BitVec 32) : (clipWord t).toNat = clampIdx 40256 (t - 10000#32) := by
  unfold clipWord clampIdx
  have h2 : 2 * (IntOp.maxsi 0#32 (IntOp.subi t 10000#32)).toNat < 2 ^ 32 := two_mul_toNat_maxsi_zero_lt _
  rw [toNat_minsi_of_lt _ _ (by decide) (by omega), toNat_maxsi_zero]
  rfl

/-- Class tile j takes the running values a to a' by the online step over the logits L, picking class idx. -/
def Tile (L : ℕ → ℝ) (idx j : ℕ) (a a' : LseMath.Acc) : Prop :=
  a'.m = max a.m (rowMax fun c : Fin 4096 => if j * 4096 + c.val < 40257 then (L (j * 4096 + c.val) : EReal) else ⊥) ∧
  a'.l = Ideal.exp (a.m - a'.m) * a.l
      + ∑ c : Fin 4096, Ideal.exp ((if j * 4096 + c.val < 40257 then (L (j * 4096 + c.val) : EReal) else ⊥) - a'.m) ∧
  a'.g = a.g + ∑ c : Fin 4096, (if j * 4096 + c.val = idx then (L (j * 4096 + c.val) : EReal) else 0)

section Row

variable (hr : Fin 128 → ℝ) (w2r : Fin 40257 → Fin 128 → ℝ)

def logit (n : ℕ) : ℝ := if h : n < 40257 then ∑ k' : Fin 128, hr k' * w2r ⟨n, h⟩ k' else 0

variable (i : grid2.Coords) (j : ℕ) (hj : (i 1).val = j) (hj10 : j < 10)
  (h : Vec Ideal S512x128 .bf16) (w2 : Vec Ideal S4096x128 .f32) (p : Fin 512)
  (hh : ∀ k' : Fin 128, h (ix2 p k') = (hr k' : EReal))
  (hw : ∀ (cix : Fin 4096) (k' : Fin 128) (hlt : j * 4096 + cix.val < 40257),
    w2 (ix2 cix k') = (w2r ⟨j * 4096 + cix.val, hlt⟩ k' : EReal))

include hh hw in
theorem logit_eq (c : Fin 4096) (hlt : j * 4096 + c.val < 40257) :
    k2_pay7 h w2 (ix2 p c) = (logit hr w2r (j * 4096 + c.val) : EReal) := by
  rw [pay7_apply]
  unfold logit
  rw [dif_pos hlt, LseMath.coe_sum]
  exact Finset.sum_congr rfl fun k' _ => by rw [hh, hw c k' hlt, EReal.coe_mul]

include hj hj10 hh hw in
theorem masked_eq (c : Fin 4096) :
    k2_pay9 i h w2 (ix2 p c)
      = if j * 4096 + c.val < 40257 then (logit hr w2r (j * 4096 + c.val) : EReal) else ⊥ := by
  rw [pay9_apply i h w2 p (by omega) c, hj]
  by_cases hlt : j * 4096 + c.val < 40257
  · rw [if_pos hlt, if_pos hlt]; exact logit_eq hr w2r j h w2 p hh hw c hlt
  · rw [if_neg hlt, if_neg hlt]

include hj hj10 hh hw in
/-- The kernel's new maximum, sum and pick at row p are the online step over the row's real logits. -/
theorem tile_step (tg : Vec Ideal S512x1 .i32) (m l g : Vec Ideal S512x1 .f32) :
    Tile (logit hr w2r) (clampIdx 40256 (tg (ix2 p (0 : Fin 1)) - 10000#32)) j
      ⟨m (ix2 p (0 : Fin 1)), l (ix2 p (0 : Fin 1)), g (ix2 p (0 : Fin 1))⟩
      ⟨k2_pay11 i h w2 m (ix2 p (0 : Fin 1)), k2_pay12 i h w2 m l (ix2 p (0 : Fin 1)),
        k2_pay1 (k2_pay7 h w2) (k2_pay8 i) tg g (ix2 p (0 : Fin 1))⟩ := by
  have hm := masked_eq hr w2r i j hj hj10 h w2 p hh hw
  refine ⟨?_, ?_, ?_⟩ <;> dsimp only
  · rw [pay11_apply, pay10_apply]
    exact congrArg (max _) (congrArg rowMax (funext hm))
  · rw [pay12_apply, pay11_apply]
    exact congrArg (_ + ·) (Finset.sum_congr rfl fun c _ => by rw [hm c])
  · rw [pay1_apply]
    refine congrArg (_ + ·) (Finset.sum_congr rfl fun c _ => ?_)
    rw [pay8_apply, hj, select_eq_word _ (by have := c.isLt; omega), clipWord_toNat]
    by_cases he : j * 4096 + c.val = clampIdx 40256 (tg (ix2 p (0 : Fin 1)) - 10000#32)
    · rw [if_pos he, if_pos he]
      exact logit_eq hr w2r j h w2 p hh hw c (by have := clampIdx_le 40256 (tg (ix2 p (0 : Fin 1)) - 10000#32); omega)
    · rw [if_neg he, if_neg he]

end Row

end Cert.KernelIdeal.Val.T2

end
-- ==== Proof.KI.Val2.Row.lean ====
import proofs.«416445_j13245679141252_2_alg».proof.Proof.KI.Reg2.Defs
import proofs.«416445_j13245679141252_2_alg».proof.Proof.KI.Val2.Pay
import proofs.«416445_j13245679141252_2_alg».proof.Proof.KI.Val2.Blk
import proofs.«416445_j13245679141252_2_alg».proof.Proof.KI.Val2.Step
import proofs.«416445_j13245679141252_2_alg».proof.Proof.LseMath

noncomputable section

namespace Cert.KernelIdeal.Val.T2

open Cert.KernelIdeal Cert.KernelIdeal.Gen Cert.KernelIdeal.Reg
open Idealize.ShloMosaic Idealize.ShloMosaic.TcCoe Idealize.ShloMosaic.ValueIdx
open Cert.Spec

variable (V : (c : Dev nD) → (b : Ref sig .tc) → Buf (Elt Ideal) ((c : Thread nD τ).loc b))

theorem sAt2_congr (c : Dev nD) (n n' : ℕ) (hn : n < cfg2.N) (hn' : n' < cfg2.N) (e : n = n') :
    sAt2 V c n hn = sAt2 V c n' hn' := by subst e; rfl

def acc (s : St2) (p : Fin 512) : LseMath.Acc :=
  ⟨s.2.1 (ix2 p (0 : Fin 1)), s.2.2.1 (ix2 p (0 : Fin 1)), s.2.2.2 (ix2 p (0 : Fin 1))⟩

abbrev tgw (c : Dev nD) (r : Fin 4096) : BitVec 32 := V c main_v0 (ix2 r (0 : Fin 1))

variable (c : Dev nD)
  (xr : Fin 4096 → Fin 2048 → ℝ) (w1r : Fin 128 → Fin 2048 → ℝ) (w2r : Fin 40257 → Fin 128 → ℝ) (cr : Fin 4096 → ℝ)
  (hx : ∀ r k, V c main_arg0 (ix2 r k) = ((xr r k : ℝ) : EReal)) (hw1 : ∀ j k, V c main_arg5 (ix2 j k) = ((w1r j k : ℝ) : EReal))
  (hw2 : ∀ j k, V c main_arg6 (ix2 j k) = ((w2r j k : ℝ) : EReal)) (hc : ∀ r : Fin 4096, V c main_v4 (ix2 r (0 : Fin 1)) = ((cr r : ℝ) : EReal))
  (r : Fin 4096)

/-- The state the class tile at point t leaves, from the state before it. -/
def tile (t : Fin cfg2.N) (s : St2) : St2 := upd2 (grid2.coords t) (w2blk V c t) (iblk2 V c 3 t) s

def hrow (k' : Fin 128) : ℝ := ∑ k : Fin 2048, xr r k * w1r k' k

include hx hw1 in
theorem init_h (t : Fin cfg2.N) (p : Fin 512) (hr : r.val = 512 * (t.val / 10) + p.val) (k' : Fin 128) :
    (init2 (iblk2 V c 0 t) (iblk2 V c 1 t)).1 (ix2 p k') = (hrow xr w1r r k' : EReal) := by
  refine (pay3_apply (iblk2 V c 0 t) (iblk2 V c 1 t) p k').trans ?_
  unfold hrow
  rw [LseMath.coe_sum]
  refine Finset.sum_congr rfl fun k _ => ?_
  rw [EReal.coe_mul, ← hx r k, ← hw1 k' k]
  exact congrArg₂ (· * ·) (xblk_apply V c t p k r hr) (w1blk_apply V c t k' k)

include hw2 in
/-- One tile at r's row, from any state whose projection row is the projected row: the running values step. -/
theorem upd_acc (t : Fin cfg2.N) (j : ℕ) (hjt : t.val % 10 = j) (p : Fin 512) (hr : r.val = 512 * (t.val / 10) + p.val)
    (s : St2) (hs : ∀ k' : Fin 128, s.1 (ix2 p k') = (hrow xr w1r r k' : EReal)) :
    Tile (logit (hrow xr w1r r) w2r) (clampIdx 40256 (tgw V c r - 10000#32)) j (acc s p) (acc (tile V c t s) p) := by
  obtain ⟨h, m, l, g⟩ := s
  have hj : ((grid2.coords t) 1).val = j := (idx_facts2 t).2.2.2.2.2.2.2.2.2.2.2.2.trans hjt
  have hw : ∀ (cix : Fin 4096) (k' : Fin 128) (hlt : j * 4096 + cix.val < 40257),
      w2blk V c t (ix2 cix k') = (w2r ⟨j * 4096 + cix.val, hlt⟩ k' : EReal) := fun cix k' hlt =>
    (w2blk_apply V c t cix k' ⟨j * 4096 + cix.val, hlt⟩ (by show j * 4096 + cix.val = _; omega)).trans (hw2 _ _)
  have hstep := tile_step (hrow xr w1r r) w2r (grid2.coords t) j hj (by omega) h (w2blk V c t) p hs hw (iblk2 V c 3 t) m l g
  rw [tgblk_apply V c t p r hr] at hstep
  exact hstep

theorem pt_lt (j : ℕ) (hj : j < 10) : 10 * (r.val / 512) + j < cfg2.N := by
  have := r.isLt; have : cfg2.N = 80 := N_2; omega

def pt (j : ℕ) (hj : j < 10) : Fin cfg2.N := ⟨10 * (r.val / 512) + j, pt_lt r j hj⟩

def prow : Fin 512 := ⟨r.val % 512, Nat.mod_lt _ (by decide)⟩

theorem pt_row (j : ℕ) (hj : j < 10) : r.val = 512 * ((pt r j hj).val / 10) + (prow r).val := by
  show r.val = 512 * ((10 * (r.val / 512) + j) / 10) + r.val % 512
  omega

theorem pt_mod (j : ℕ) (hj : j < 10) : (pt r j hj).val % 10 = j := by
  show (10 * (r.val / 512) + j) % 10 = j
  omega

/-- The state class tile j of r's row tile starts from: the reset state, then what the tile before left. -/
def S0 : (j : ℕ) → j < 10 → St2
  | 0, hj => init2 (iblk2 V c 0 (pt r 0 hj)) (iblk2 V c 1 (pt r 0 hj))
  | j + 1, hj => sAt2 V c (pt r j (by omega)).val (pt r j (by omega)).isLt

theorem sAt2_pt : ∀ (j : ℕ) (hj : j < 10),
    sAt2 V c (pt r j hj).val (pt r j hj).isLt = tile V c (pt r j hj) (S0 V c r j hj)
  | 0, hj => sAt2_first V c (pt r 0 hj) (pt_mod r 0 hj)
  | j + 1, hj => (sAt2_next V c (pt r (j + 1) hj) (by rw [pt_mod]; omega)).trans
    (congrArg (tile V c (pt r (j + 1) hj))
      (sAt2_congr V c _ _ _ _ (by show 10 * (r.val / 512) + (j + 1) - 1 = 10 * (r.val / 512) + j; omega)))

include hx hw1 in
/-- Every class tile starts from a state whose row is the projected row. -/
theorem S0_h : ∀ (j : ℕ) (hj : j < 10) (k' : Fin 128),
    (S0 V c r j hj).1 (ix2 (prow r) k') = (hrow xr w1r r k' : EReal)
  | 0, hj, k' => init_h V c xr w1r hx hw1 r (pt r 0 hj) (prow r) (pt_row r 0 hj) k'
  | j + 1, hj, k' => by
    show (sAt2 V c (pt r j (by omega)).val (pt r j (by omega)).isLt).1 (ix2 (prow r) k') = _
    rw [sAt2_pt V c r j (by omega)]
    exact S0_h j (by omega) k'

def aSeq : ℕ → LseMath.Acc
  | 0 => ⟨⊥, 0, 0⟩
  | j + 1 => if hj : j < 10 then acc (sAt2 V c (pt r j hj).val (pt r j hj).isLt) (prow r) else ⟨⊥, 0, 0⟩

theorem aSeq_eq : ∀ (j : ℕ) (hj : j < 10), aSeq V c r j = acc (S0 V c r j hj) (prow r)
  | 0, hj => by
    show (⟨⊥, 0, 0⟩ : LseMath.Acc) = ⟨k2_pay4 (F := Ideal) (ix2 (prow r) (0 : Fin 1)), k2_pay5 (F := Ideal) (ix2 (prow r) (0 : Fin 1)), k2_pay6 (F := Ideal) (ix2 (prow r) (0 : Fin 1))⟩
    rw [pay4_apply, pay5_apply, pay6_apply]
  | j + 1, hj => by rw [aSeq]; exact dif_pos (by omega)

include hx hw1 hw2 in
theorem aSeq_step (j : ℕ) (hj : j < 10) :
    Tile (logit (hrow xr w1r r) w2r) (clampIdx 40256 (tgw V c r - 10000#32)) j (aSeq V c r j) (aSeq V c r (j + 1)) := by
  have h1 : aSeq V c r (j + 1) = acc (sAt2 V c (pt r j hj).val (pt r j hj).isLt) (prow r) := by rw [aSeq]; exact dif_pos hj
  rw [h1, aSeq_eq V c r j hj, sAt2_pt V c r j hj]
  exact upd_acc V c xr w1r w2r hw2 r (pt r j hj) j (pt_mod r j hj) (prow r) (pt_row r j hj) _
    (S0_h V c xr w1r hx hw1 r j hj)

include hx hw1 hw2 hc in
/-- At r's row the last class tile's block is the head column plus the log-probability of the clipped shifted target. -/
theorem oAt2_last (hn : 10 * (r.val / 512) + 9 < cfg2.N) :
    oAt2 V c (10 * (r.val / 512) + 9) hn (ix2 (⟨r.val % 512, Nat.mod_lt _ (by decide)⟩ : Fin 512) (0 : Fin 1))
      = ((cr r + lsm (fun j : Fin 40257 => ∑ k' : Fin 128, (∑ k : Fin 2048, xr r k * w1r k' k) * w2r j k')
          (tc1 (V c main_v0 (ix2 r (0 : Fin 1)))) : ℝ) : EReal) := by
  have hfin := LseMath.online_final 10 4096 40257 (by omega) (by omega) (by omega) (by omega)
    (logit (hrow xr w1r r) w2r) (clampIdx 40256 (tgw V c r - 10000#32))
    (by have := clampIdx_le 40256 (tgw V c r - 10000#32); omega)
    (aSeq V c r) rfl (fun j hj => aSeq_step V c xr w1r w2r hx hw1 hw2 r j hj) (cr r)
  have h10 : aSeq V c r 10 = acc (sAt2 V c (pt r 9 (by omega)).val (pt r 9 (by omega)).isLt) (prow r) := by
    show aSeq V c r (9 + 1) = _
    rw [aSeq]; exact dif_pos (by omega)
  rw [h10] at hfin
  have e : (fun i : Fin 40257 => logit (hrow xr w1r r) w2r i.val)
      = fun j : Fin 40257 => ∑ k' : Fin 128, (∑ k : Fin 2048, xr r k * w1r k' k) * w2r j k' :=
    funext fun i => by unfold logit; rw [dif_pos i.isLt]; rfl
  rw [e] at hfin
  refine Eq.trans ?_ hfin
  show k2_pay2 (sAt2 V c _ hn).2.1 (sAt2 V c _ hn).2.2.1 (iblk2 V c 4 (pt r 9 (by omega))) (sAt2 V c _ hn).2.2.2
      (ix2 (prow r) (0 : Fin 1)) = _
  rw [pay2_apply, cblk_apply V c (pt r 9 (by omega)) (prow r) r (pt_row r 9 (by omega)), hc]
  rfl

end Cert.KernelIdeal.Val.T2

end
-- ==== Proof.KI.Arr2.lean ====
import proofs.«416445_j13245679141252_2_alg».proof.Proof.KI.Reg2.Defs
import Idealize.ShloMosaic.Lib.Pipeline.Value
import Idealize.ShloMosaic.Lib.ValueIdx

noncomputable section

namespace Cert.KernelIdeal.Val

open Cert.KernelIdeal Cert.KernelIdeal.Gen Cert.KernelIdeal.Reg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem oAt2_at (c : Dev nD) {n n' : ℕ} (hn : n < cfg2.N) (hn' : n' < cfg2.N) {y y' : S512x1.Idx} (h : n = n') (hy : y = y') :
    oAt2 V c n hn y = oAt2 V c n' hn' y' := by
  subst h; subst hy; rfl

theorem idx2_5 : ∀ t : Fin grid2.N, win2_5.index t (0 : Fin 2) = t.val / 10 ∧ win2_5.index t (1 : Fin 2) = 0 := by
  decide +kernel

/-- Row r of the output array, read off the block the last class tile of row block r / 512 left. -/
def G2 (c : Dev nD) : S4096x1.Idx → Elt Ideal .f32 := fun i =>
  oAt2 V c (10 * ((i 0).val / 512) + 9)
    (by have h : (i 0).val < 4096 := (i 0).isLt; have hN : cfg2.N = 80 := N_2; omega)
    (ix2 (⟨(i 0).val % 512, Nat.mod_lt _ (by decide)⟩ : Fin 512) (0 : Fin 1))

theorem flushed2_5_eq (c : Dev nD) (t : Fin cfg2.N) (hf : (cfg2.win 5).flush t = true) :
    (dat2 V c).flushed 5 t = ((cfg2.win 5).blk t).view.read (Elt Ideal) (G2 V c) := by
  have h9 : t.val % 10 = 9 := (flush2_5 t).mp hf
  have := idx2_5 t
  funext y
  have hy0 : (y 0).val < 512 := (y 0).isLt
  have hy1 : (y 1).val < 1 := (y 1).isLt
  have hrow : ((((cfg2.win 5).blk t).view.emb y) 0).val = win2_5.index t (0 : Fin 2) * 512 + 1 * (y 0).val := rfl
  show oAt2 V c t.val t.isLt y = G2 V c (((cfg2.win 5).blk t).view.emb y)
  exact oAt2_at V c _ _ (by omega) (Shape.idx_ext₂ (by show (y 0).val = _ % 512; omega) (by show (y 1).val = 0; omega))

theorem arr2_row (c : Dev nD) (r : Fin 4096) (hn : 10 * (r.val / 512) + 9 < cfg2.N) :
    (dat2 V c).arrAt 5 cfg2.N (ix2 r (0 : Fin 1))
      = oAt2 V c (10 * (r.val / 512) + 9) hn (ix2 (⟨r.val % 512, Nat.mod_lt _ (by decide)⟩ : Fin 512) (0 : Fin 1)) := by
  have hr : r.val < 4096 := r.isLt
  have hf : (cfg2.win 5).flush ⟨10 * (r.val / 512) + 9, hn⟩ = true := (flush2_5 _).mpr (by show (10 * (r.val / 512) + 9) % 10 = 9; omega)
  have ht : (⟨10 * (r.val / 512) + 9, hn⟩ : Fin cfg2.N).val = 10 * (r.val / 512) + 9 := rfl
  have := idx2_5 ⟨10 * (r.val / 512) + 9, hn⟩
  refine (dat2 V c).arrAt_apply_of_mem 5 (G2 V c) (flushed2_5_eq V c) cfg2.N ⟨10 * (r.val / 512) + 9, hn⟩ _ hn hf
    (show _ ∈ ((View.whole main_v6).slice (win2_5.rect _)).set from ?_)
  rw [View.set_slice_whole, Rect.mem_set_unit]
  intro a
  match a with
  | ⟨0, _⟩ =>
    show win2_5.index _ (0 : Fin 2) * 512 ≤ r.val ∧ r.val < win2_5.index _ (0 : Fin 2) * 512 + 512
    omega
  | ⟨1, _⟩ =>
    show win2_5.index _ (1 : Fin 2) * 1 ≤ 0 ∧ 0 < win2_5.index _ (1 : Fin 2) * 1 + 1
    omega

end Cert.KernelIdeal.Val

end
-- ==== Proof.KI.Val2.lean ====
import proofs.«416445_j13245679141252_2_alg».proof.Proof.KI.Reg2.Defs
import proofs.«416445_j13245679141252_2_alg».proof.Proof.KI.Val2.Row
import proofs.«416445_j13245679141252_2_alg».proof.Proof.KI.Arr2
import proofs.«416445_j13245679141252_2_alg».proof.Proof.Spec
import proofs.«416445_j13245679141252_2_alg».proof.Proof.LseMath

noncomputable section

namespace Cert.KernelIdeal.Val

open Cert.KernelIdeal Cert.KernelIdeal.Gen Cert.KernelIdeal.Reg
open Idealize.ShloMosaic Idealize.ShloMosaic.TcCoe Idealize.ShloMosaic.ValueIdx

theorem arr2_apply (V : (c : Dev nD) → (b : Ref sig .tc) → Buf (Elt Ideal) ((c : Thread nD τ).loc b)) (c : Dev nD)
    (xr : Fin 4096 → Fin 2048 → ℝ) (w1r : Fin 128 → Fin 2048 → ℝ) (w2r : Fin 40257 → Fin 128 → ℝ) (cr : Fin 4096 → ℝ)
    (hx : ∀ r k, V c main_arg0 (ix2 r k) = ((xr r k : ℝ) : EReal)) (hw1 : ∀ j k, V c main_arg5 (ix2 j k) = ((w1r j k : ℝ) : EReal))
    (hw2 : ∀ j k, V c main_arg6 (ix2 j k) = ((w2r j k : ℝ) : EReal)) (hc : ∀ r : Fin 4096, V c main_v4 (ix2 r (0 : Fin 1)) = ((cr r : ℝ) : EReal)) (r : Fin 4096) :
    (Reg.dat2 V c).arrAt 5 cfg2.N (ix2 r (0 : Fin 1))
      = ((cr r + Cert.Spec.lsm (fun j : Fin 40257 => ∑ k' : Fin 128, (∑ k : Fin 2048, xr r k * w1r k' k) * w2r j k') (Cert.Spec.tc1 (V c main_v0 (ix2 r (0 : Fin 1)))) : ℝ) : EReal) :=
  (arr2_row V c r (T2.pt_lt r 9 (by omega))).trans
    (T2.oAt2_last V c xr w1r w2r cr hx hw1 hw2 hc r (T2.pt_lt r 9 (by omega)))

end Cert.KernelIdeal.Val

end
-- ==== Proof.Finite.lean ====
import proofs.«416445_j13245679141252_2_alg».proof.Defs
import Idealize.ShloMosaic.Lib.ReduceAll
import Idealize.ShloMosaic.Lib.ValueIdx

noncomputable section

namespace Cert.Finite

open Idealize.ShloMosaic Idealize.ShloMosaic.ValueIdx Cert.KernelIdeal

-- An extended real whose absolute value `max x (−x)` is strictly below `+∞` is neither `⊥` nor `⊤`.
private theorem real_of_abs_lt (x : EReal)
    (h : Ideal.cmp .olt (max x (-x)) (Ideal.ofBits .f32 0x7F800000#32) = 1#1) : ∃ y : ℝ, x = (y : EReal) := by
  rw [show Ideal.ofBits .f32 0x7F800000#32 = (⊤ : EReal) by simp [Ideal.ofBits, Ideal.ieee]] at h
  induction x using EReal.rec with
  | coe y => exact ⟨y, rfl⟩
  | _ => simp [Ideal.cmp] at h

-- `all(|x| < +∞)` over a rank-two array: a reduction by `and` that is 1 had a 1 at every index.
private theorem real_of_all {a b : ℕ} (x : FVec Ideal (⟨2, ![a, b]⟩ : Shape) .f32)
    (hb : (⟨0, ![]⟩ : Shape).BroadcastsInDim (⟨2, ![a, b]⟩ : Shape) (![] : Fin 0 → Fin (⟨2, ![a, b]⟩ : Shape).rank))
    (hr : (⟨2, ![a, b]⟩ : Shape).ReducesTo [0, 1] (⟨0, ![]⟩ : Shape)) (hS : 0 < (⟨0, ![]⟩ : Shape).numel)
    (e : Host.reduce IntOp.andi
          (cmpf .olt (Host.absf x)
            (broadcastInDim (⟨2, ![a, b]⟩ : Shape) ![] hb (constant (⟨0, ![]⟩ : Shape) .f32 0x7F800000#32)))
          (constantI (⟨0, ![]⟩ : Shape) 1 1#1) hr hS ix0 = 1#1) :
    ∃ xr : Fin a → Fin b → ℝ, ∀ r k, x (ix2 r k) = ((xr r k : ℝ) : EReal) := by
  have hreal (r : Fin a) (k : Fin b) := real_of_abs_lt _ (Host.reduce_andi_all _ _ hr hS ix0 e (ix2 r k))
  exact ⟨fun r k => (hreal r k).choose, fun r k => (hreal r k).choose_spec⟩

theorem real_of_pre [hPre_finite_inputs : Cert.Pre_finite_inputs.Facts] (m : (ℓ : Loc nD τ sig) → Buf (Elt Ideal) ℓ) (h : Cert.Pre_KernelIdeal m) (c : Dev nD) :
    (∃ xr : Fin 4096 → Fin 2048 → ℝ, ∀ r k, m ((c.tc : Thread nD τ).loc main_arg0) (ix2 r k) = ((xr r k : ℝ) : EReal))
    ∧ (∃ wr : Fin 1002 → Fin 2048 → ℝ, ∀ r k, m ((c.tc : Thread nD τ).loc main_arg2) (ix2 r k) = ((wr r k : ℝ) : EReal))
    ∧ (∃ wr : Fin 512 → Fin 2048 → ℝ, ∀ r k, m ((c.tc : Thread nD τ).loc main_arg3) (ix2 r k) = ((wr r k : ℝ) : EReal))
    ∧ (∃ wr : Fin 9000 → Fin 512 → ℝ, ∀ r k, m ((c.tc : Thread nD τ).loc main_arg4) (ix2 r k) = ((wr r k : ℝ) : EReal))
    ∧ (∃ wr : Fin 128 → Fin 2048 → ℝ, ∀ r k, m ((c.tc : Thread nD τ).loc main_arg5) (ix2 r k) = ((wr r k : ℝ) : EReal))
    ∧ (∃ wr : Fin 40257 → Fin 128 → ℝ, ∀ r k, m ((c.tc : Thread nD τ).loc main_arg6) (ix2 r k) = ((wr r k : ℝ) : EReal)) := by
  have h0 := congrFun (h c) ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨real_of_all _ _ _ _ e1, real_of_all _ _ _ _ e2, real_of_all _ _ _ _ e3, real_of_all _ _ _ _ e4,
    real_of_all _ _ _ _ e5, real_of_all _ _ _ _ e6⟩

end Cert.Finite

end
-- ==== Proof.KI.Bridge.lean ====
import proofs.«416445_j13245679141252_2_alg».proof.Proof.KI.Tail
import proofs.«416445_j13245679141252_2_alg».proof.Proof.KI.Val0
import proofs.«416445_j13245679141252_2_alg».proof.Proof.KI.Val1
import proofs.«416445_j13245679141252_2_alg».proof.Proof.KI.Val2
import proofs.«416445_j13245679141252_2_alg».proof.Proof.Finite
import proofs.«416445_j13245679141252_2_alg».proof.Proof.Spec
import proofs.«416445_j13245679141252_2_alg».proof.Proof.LseMath

set_option maxRecDepth 16384

noncomputable section

namespace Cert.KernelIdeal.Val

open Cert.KernelIdeal Cert.KernelIdeal.Gen Cert.KernelIdeal.Reg Idealize.ShloMosaic Idealize.ShloMosaic.TcCoe Idealize.ShloMosaic.ValueIdx

variable (m : (ℓ : Loc nD τ sig) → Buf (Elt Ideal) ℓ)

theorem out_row [hPre_finite_inputs : Cert.Pre_finite_inputs.Facts] (h : Cert.Pre_KernelIdeal m) (c : Dev nD) (r : Fin 4096) :
    Reg.W9 m c (Proc.devRef .tc main_v15) (ix1 r)
      = Cert.Spec.outRow (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg1) (ix1 r)) r := by
  obtain ⟨⟨xr, hx⟩, ⟨whr, hwh⟩, ⟨w10r, hw10⟩, ⟨w20r, hw20⟩, ⟨w11r, hw11⟩, ⟨w21r, hw21⟩⟩ := Cert.Finite.real_of_pre m h c

  have A0 := fun r' => arr0_apply (Reg.V1 m) c xr whr (fun r k => by rw [V1_arg m c main_arg0 (by decide)]; exact hx r k)
    (fun j k => by rw [V1_arg m c main_arg2 (by decide)]; exact hwh j k) r'

  have A1 := arr1_apply (Reg.V3 m) c xr w10r w20r
    (fun r' => Cert.Spec.lsm (fun j : Fin 1002 => ∑ k : Fin 2048, xr r' k * whr j k) ⟨1000, by omega⟩)
    (fun r k => by rw [V3_arg m c main_arg0 (by decide)]; exact hx r k) (fun j k => by rw [V3_arg m c main_arg3 (by decide)]; exact hw10 j k)
    (fun j k => by rw [V3_arg m c main_arg4 (by decide)]; exact hw20 j k) (fun r' => (V3_v3 m c r').trans (A0 r').2.1) r

  have A2 := arr2_apply (Reg.V4 m) c xr w11r w21r
    (fun r' => Cert.Spec.lsm (fun j : Fin 1002 => ∑ k : Fin 2048, xr r' k * whr j k) ⟨1001, by omega⟩)
    (fun r k => by rw [V4_arg m c main_arg0 (by decide)]; exact hx r k) (fun j k => by rw [V4_arg m c main_arg5 (by decide)]; exact hw11 j k)
    (fun j k => by rw [V4_arg m c main_arg6 (by decide)]; exact hw21 j k) (fun r' => (V4_v4 m c r').trans (A0 r').2.2) r
  have A00 := (A0 r).1
  rw [V1_v0] at A00
  rw [V3_v0] at A1
  rw [V4_v0] at A2

  have l0 : ∀ i, Cert.Spec.lsmE (Cert.Spec.rowDot (m ((c : Thread nD τ).loc main_arg0)) (m ((c : Thread nD τ).loc main_arg2)) r) i
      = ((Cert.Spec.lsm (fun j : Fin 1002 => ∑ k : Fin 2048, xr r k * whr j k) i : ℝ) : EReal) := fun i => by
    rw [show Cert.Spec.rowDot (m ((c : Thread nD τ).loc main_arg0)) (m ((c : Thread nD τ).loc main_arg2)) r
        = fun j => ((∑ k : Fin 2048, xr r k * whr j k : ℝ) : EReal) from
      funext fun j => Cert.LseMath.rowDot_coe _ _ xr whr hx hwh r j]
    exact Cert.LseMath.lsmE_coe (by norm_num) _ i
  have l1 : ∀ i, Cert.Spec.lsmE (Cert.Spec.rowDot2 (m ((c : Thread nD τ).loc main_arg0)) (m ((c : Thread nD τ).loc main_arg3))
        (m ((c : Thread nD τ).loc main_arg4)) r) i
      = ((Cert.Spec.lsm (fun j : Fin 9000 => ∑ k' : Fin 512, (∑ k : Fin 2048, xr r k * w10r k' k) * w20r j k') i : ℝ) : EReal) :=
    fun i => by
    rw [show Cert.Spec.rowDot2 (m ((c : Thread nD τ).loc main_arg0)) (m ((c : Thread nD τ).loc main_arg3))
          (m ((c : Thread nD τ).loc main_arg4)) r
        = fun j => ((∑ k' : Fin 512, (∑ k : Fin 2048, xr r k * w10r k' k) * w20r j k' : ℝ) : EReal) from
      funext fun j => Cert.LseMath.rowDot2_coe _ _ _ xr w10r w20r hx hw10 hw20 r j]
    exact Cert.LseMath.lsmE_coe (by norm_num) _ i
  have l2 : ∀ i, Cert.Spec.lsmE (Cert.Spec.rowDot2 (m ((c : Thread nD τ).loc main_arg0)) (m ((c : Thread nD τ).loc main_arg5))
        (m ((c : Thread nD τ).loc main_arg6)) r) i
      = ((Cert.Spec.lsm (fun j : Fin 40257 => ∑ k' : Fin 128, (∑ k : Fin 2048, xr r k * w11r k' k) * w21r j k') i : ℝ) : EReal) :=
    fun i => by
    rw [show Cert.Spec.rowDot2 (m ((c : Thread nD τ).loc main_arg0)) (m ((c : Thread nD τ).loc main_arg5))
          (m ((c : Thread nD τ).loc main_arg6)) r
        = fun j => ((∑ k' : Fin 128, (∑ k : Fin 2048, xr r k * w11r k' k) * w21r j k' : ℝ) : EReal) from
      funext fun j => Cert.LseMath.rowDot2_coe _ _ _ xr w11r w21r hx hw11 hw21 r j]
    exact Cert.LseMath.lsmE_coe (by norm_num) _ i
  rw [W9_v15 m c r]
  unfold Cert.Spec.outRow
  by_cases h1 : (m ((c : Thread nD τ).loc main_arg1) (ix1 r)).slt 1000#32 = true
  · rw [if_pos h1, if_pos h1, A00, l0]
  · rw [if_neg h1, if_neg h1]
    by_cases h2 : (m ((c : Thread nD τ).loc main_arg1) (ix1 r)).slt 10000#32 = true
    · rw [if_pos h2, if_pos h2, A1, l0, l1, EReal.coe_add]
    · rw [if_neg h2, if_neg h2, A2, l0, l2, EReal.coe_add]

end Cert.KernelIdeal.Val

end
-- ==== Proof.LibPlainBuilders.lean ====
import Idealize.ShloMosaic.Lib.StableHlo

namespace Cert.Lib.PlainBuilders

open Idealize.ShloMosaic Idealize.ShloMosaic.StableHlo Idealize.ShloMosaic.TcCoe

variable {τ : Topo} {sig : RefSig} {Val : EltTy → Type}

/-- A host operation built over typed references of the buffers' own types is the operation built over the buffers. -/
theorem nullary_plain (y : Ref sig .tc) {oy : y.space ≠ .host} {uy : y.isScoped = false} {v : y.ty.Contents Val}
    {hy : y.space ≠ .host ∧ (y : DevRef τ sig).isScoped = false} :
    (TRef.nullary (TRef.of (T := y.ty) y rfl oy uy) v : HloOp τ sig Val) = nullary y v hy := rfl

theorem unary_plain (x y : Ref sig .tc) {ox : x.space ≠ .host} {ux : x.isScoped = false} {oy : y.space ≠ .host}
    {uy : y.isScoped = false} {f : x.ty.Contents Val → y.ty.Contents Val}
    {hx : x.space ≠ .host ∧ (x : DevRef τ sig).isScoped = false} {hy : y.space ≠ .host ∧ (y : DevRef τ sig).isScoped = false} :
    (TRef.unary (TRef.of (T := x.ty) x rfl ox ux) (TRef.of (T := y.ty) y rfl oy uy) f : HloOp τ sig Val) = unary x y f hx hy := rfl

theorem binary_plain (a b y : Ref sig .tc) {oa : a.space ≠ .host} {ua : a.isScoped = false} {ob : b.space ≠ .host}
    {ub : b.isScoped = false} {oy : y.space ≠ .host} {uy : y.isScoped = false}
    {f : a.ty.Contents Val → b.ty.Contents Val → y.ty.Contents Val}
    {ha : a.space ≠ .host ∧ (a : DevRef τ sig).isScoped = false} {hb : b.space ≠ .host ∧ (b : DevRef τ sig).isScoped = false}
    {hy : y.space ≠ .host ∧ (y : DevRef τ sig).isScoped = false} :
    (TRef.binary (TRef.of (T := a.ty) a rfl oa ua) (TRef.of (T := b.ty) b rfl ob ub) (TRef.of (T := y.ty) y rfl oy uy) f
      : HloOp τ sig Val) = binary a b y f ha hb hy := rfl

theorem ternary_plain (c a b y : Ref sig .tc) {oc : c.space ≠ .host} {uc : c.isScoped = false} {oa : a.space ≠ .host}
    {ua : a.isScoped = false} {ob : b.space ≠ .host} {ub : b.isScoped = false} {oy : y.space ≠ .host} {uy : y.isScoped = false}
    {f : c.ty.Contents Val → a.ty.Contents Val → b.ty.Contents Val → y.ty.Contents Val}
    {hc : c.space ≠ .host ∧ (c : DevRef τ sig).isScoped = false} {ha : a.space ≠ .host ∧ (a : DevRef τ sig).isScoped = false}
    {hb : b.space ≠ .host ∧ (b : DevRef τ sig).isScoped = false} {hy : y.space ≠ .host ∧ (y : DevRef τ sig).isScoped = false} :
    (TRef.ternary (TRef.of (T := c.ty) c rfl oc uc) (TRef.of (T := a.ty) a rfl oa ua) (TRef.of (T := b.ty) b rfl ob ub)
      (TRef.of (T := y.ty) y rfl oy uy) f : HloOp τ sig Val) = ternary c a b y f hc ha hb hy := rfl

theorem reshape_plain (x y : Ref sig .tc) {ox : x.space ≠ .host} {ux : x.isScoped = false} {oy : y.space ≠ .host}
    {uy : y.isScoped = false} {he : x.ty.elt = y.ty.elt} {hn : x.ty.shape.ShapeCasts y.ty.shape}
    {hx : x.space ≠ .host ∧ (x : DevRef τ sig).isScoped = false} {hy : y.space ≠ .host ∧ (y : DevRef τ sig).isScoped = false} :
    (TRef.reshape (TRef.of (T := x.ty) x rfl ox ux) (TRef.of (T := y.ty) y rfl oy uy) he hn : HloOp τ sig Val)
      = reshape x y he hn hx hy := rfl

end Cert.Lib.PlainBuilders
-- ==== Proof.RefOut.Base.lean ====
import Idealize.ShloMosaic.PureOps.Reduce
import Idealize.ShloMosaic.PureOps.Ideal.Laws
import Idealize.ShloMosaic.Lib.ValueIdx
import Idealize.ShloMosaic.Lib.WordArith
import Idealize.ShloMosaic.Lib.StableHlo.Predicate
import proofs.«416445_j13245679141252_2_alg».proof.Proof.Spec

noncomputable section

namespace Cert.ReferenceIdeal.RefOut

open Idealize.ShloMosaic Idealize.ShloMosaic.ValueIdx Idealize.ShloMosaic.WordArith Cert.Spec
open Idealize.ShloMosaic.StableHlo

def clipW (hi v : BitVec 32) : BitVec 32 := IntOp.minsi hi (IntOp.maxsi 0#32 v)

theorem maxsi_zero_lt (v : BitVec 32) : (IntOp.maxsi 0#32 v).toNat < 2 ^ 31 := by
  have : 2 * (IntOp.maxsi 0#32 v).toNat < 2 ^ 32 := two_mul_toNat_maxsi_zero_lt v
  omega

section
variable (hi v : BitVec 32) (hhi : hi.toNat < 2 ^ 31)
include hhi

theorem clipW_toNat : (clipW hi v).toNat = clampIdx hi.toNat v := by
  unfold clipW clampIdx
  rw [toNat_minsi_of_lt hi _ hhi (maxsi_zero_lt v), toNat_maxsi_zero]

theorem clipW_lt : (clipW hi v).toNat < 2 ^ 31 := by
  rw [clipW_toNat hi v hhi]; have := clampIdx_le hi.toNat v; omega

theorem clipW_slt_zero : IntOp.cmpi .slt (clipW hi v) 0#32 = 0#1 :=
  eq_zero_of_ne_one fun h => by
    have := (Predicate.slt_iff_toNat (clipW_lt hi v hhi) (by decide)).1 h
    simp at this

-- A clipped word passes the range test against zero and any bound at least `hi`.
theorem clipW_in_range (n : BitVec 32) (hn : n.toNat < 2 ^ 31) (h : hi.toNat ≤ n.toNat) :
    IntOp.andi (IntOp.cmpi .sge (clipW hi v) 0#32) (IntOp.cmpi .sle (clipW hi v) n) = 1#1 := by
  rw [(Predicate.sge_iff_toNat (clipW_lt hi v hhi) (by decide)).2 (by simp),
    (Predicate.sle_iff_toNat (clipW_lt hi v hhi) hn).2 (by
      rw [clipW_toNat hi v hhi]; have := clampIdx_le hi.toNat v; omega)]
  decide

end

theorem select_cmpi_slt {α : Type} (a b : BitVec 32) (A B : α) :
    Scalar.select (IntOp.cmpi .slt a b) A B = if a.slt b then A else B := by
  unfold IntOp.cmpi
  cases a.slt b <;> rfl

-- An index of an `[n, 1]` array whose row is `r`.
theorem idx_row {n : ℕ} (p : (⟨2, ![n, 1]⟩ : Shape).Idx) (r : Fin n) (h : (p 0).val = r.val) : p = ix2 r 0 :=
  (eq_ix2 p).trans (congrArg₂ ix2 (Fin.ext h) (Fin.ext (Nat.lt_one_iff.1 (p 1).isLt)))

abbrev takeRowDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

-- The row-wise take read at `(r, 0)`: row `r` at the start index `idx[r, 0, 0]`, read signed and clamped to the row.
theorem gather_row_apply {α : Type} {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (takeRowDims R N wf) x idx (ix2 r 0)
      = x (ix2 r ⟨min (idx (ix3 r 0 0)).toInt.toNat (N - 1), by omega⟩) := by
  unfold Host.gather
  congr 1
  funext a
  refine Fin.ext ?_
  match a with
  | ⟨0, _⟩ =>
    show (takeRowDims R N wf).start (ix2 r 0) idx 0 + (takeRowDims R N wf).batchCoord (ix2 r 0) 0
      + (takeRowDims R N wf).offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (takeRowDims R N wf).start (ix2 r 0) idx 1 + (takeRowDims R N wf).batchCoord (ix2 r 0) 1
      + (takeRowDims R N wf).offCoord (ix2 r 0) 1 = _
    rw [GatherDims.batchCoord_eq_zero _ _ _ (fun h => absurd (congrArg Fin.val (List.mem_singleton.mp h)) (show ¬ (1 : ℕ) = 0 from Nat.one_ne_zero)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeRowDims R N wf).startIndexMap from List.mem_singleton.mpr rfl)]
    rw [show (takeRowDims R N wf).siIdx (ix2 r 0) ⟨List.idxOf (1 : Fin 2) (takeRowDims R N wf).startIndexMap,
        List.idxOf_lt_length_iff.2 (List.mem_singleton.mpr rfl)⟩ = ix3 r 0 0 from eq_ix3 _]
    rfl

-- The row-wise take at a clipped start index reads the row at the clamped column.
theorem take_clipped {α : Type} {R N : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ 32) (r : Fin R) (hi v : BitVec 32)
    (hhi : hi.toNat < 2 ^ 31) (hle : hi.toNat ≤ N - 1) (hs : idx (ix3 r 0 0) = clipW hi v) :
    Host.gather (takeRowDims R N wf) x idx (ix2 r 0)
      = x (ix2 r ⟨clampIdx hi.toNat v, by have := clampIdx_le hi.toNat v; omega⟩) := by
  rw [gather_row_apply hN]
  refine congrArg (fun q : Fin N => x (ix2 r q)) (Fin.ext ?_)
  show min (idx (ix3 r 0 0)).toInt.toNat (N - 1) = _
  rw [hs, Predicate.toInt_eq_toNat_of_lt (clipW_lt hi v hhi), Int.toNat_natCast, clipW_toNat hi v hhi]
  exact Nat.min_eq_left ((clampIdx_le hi.toNat v).trans hle)

theorem fold_fin_one {α : Type} (f : α → α → α) [Std.Commutative f] [Std.Associative f] (init : α) (g : Fin 1 → α) :
    (Finset.univ : Finset (Fin 1)).fold f init g = f (g 0) init := by
  rw [show (Finset.univ : Finset (Fin 1)) = {0} from rfl, Finset.fold_singleton]

-- A reduction by `and` over a last axis of extent one, from an initial 1, of an entry that is 1.
theorem reduce_andi_unit {n : ℕ} (v : IVec ⟨3, ![n, 1, 1]⟩ 1) (init : IVec ⟨0, ![]⟩ 1)
    (h' : (⟨3, ![n, 1, 1]⟩ : Shape).ReducesTo [2] ⟨2, ![n, 1]⟩) (h : (⟨3, ![n, 1, 1]⟩ : Shape).Reduces [2] ⟨2, ![n, 1]⟩)
    (hu : 0 < (⟨0, ![]⟩ : Shape).numel) (r : Fin n) (hv : v (ix3 r 0 0) = 1#1) (hi : init (Shape.Idx.first hu) = 1#1) :
    Host.reduce IntOp.andi v init h' hu (ix2 r 0) = 1#1 := by
  rw [Host.reduce_eq_fold_single IntOp.andi v init h' h hu]
  refine (fold_fin_one IntOp.andi _ _).trans ?_
  show IntOp.andi (v (h.lift (ix2 r 0) (0 : Fin 1))) _ = 1#1
  rw [show h.lift (ix2 r 0) (0 : Fin 1) = ix3 r 0 0 from eq_ix3 _, hv, hi]
  rfl

-- A reduction over the columns of an `[R, N]` array, read at row `r`.
theorem reduce_row {α : Type} {R N : ℕ} (f : α → α → α) [Std.Commutative f] [Std.Associative f]
    (z : (⟨2, ![R, N]⟩ : Shape).Idx → α) (init : (⟨0, ![]⟩ : Shape).Idx → α)
    (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (r : Fin R) :
    Host.reduce f z init h' hu (ix1 r)
      = (Finset.univ : Finset (Fin N)).fold f (init (Shape.Idx.first hu)) fun k => z (ix2 r k) := by
  rw [Host.reduce_eq_fold_single f z init h' h hu]
  exact congrArg (fun g => Finset.fold f _ g _) (funext fun k => congrArg z (show h.lift (ix1 r) k = ix2 r k from eq_ix2 _))

-- The reference's row maximum: a fold from `−∞`, and one more maximum against `−∞`.
theorem max_fold_neg_inf {n : ℕ} (L : Fin n → EReal) :
    max (Ideal.ofBits .f32 0xFF800000#32) ((Finset.univ : Finset (Fin n)).fold max (Ideal.ofBits .f32 0xFF800000#32) L)
      = rowMax L := by
  rw [ofBits_neg_inf]; exact max_eq_right bot_le

end Cert.ReferenceIdeal.RefOut

end
-- ==== Proof.RefOut.Head.lean ====
import proofs.«416445_j13245679141252_2_alg».proof.Proof.RefReadP
import proofs.«416445_j13245679141252_2_alg».proof.Proof.RefOut.Base

noncomputable section

namespace Cert.ReferenceIdeal.RefOut

open Gen ValueP ReadP Spec Idealize.ShloMosaic Idealize.ShloMosaic.ValueIdx

variable (x0 : (⟨S4096x2048, .f32⟩ : BufTy).Contents (Elt Ideal)) (x1 : (⟨S4096, .i32⟩ : BufTy).Contents (Elt Ideal))
  (x2 : (⟨S1002x2048, .f32⟩ : BufTy).Contents (Elt Ideal)) (r : Fin 4096)

theorem logitsH (j : Fin 1002) : val_main_v1 x0 x2 (ix2 r j) = rowDot x0 x2 r j := by
  rw [val_main_v1_apply]
  refine Finset.sum_congr rfl fun k _ => ?_
  rw [val_main_v0_apply, show lidx_main_v1 (ix2 r j) k = ix2 r k from eq_ix2 _,
    show idx_main_v0 (ridx_main_v1 (ix2 r j) k) = ix2 j k from eq_ix2 _]

theorem rowmaxH : val_main_call0_v2 x0 x2 (ix1 r) = rowMax (rowDot x0 x2 r) := by
  rw [val_main_call0_v2_apply]
  unfold val_main_call0_v0
  rw [reduce_row (N := 1002) _ _ _ _ (by decide), funext (logitsH x0 x2 r)]
  exact max_fold_neg_inf _

theorem centeredH (j : Fin 1002) :
    val_main_call0_v5 x0 x2 (ix2 r j) = rowDot x0 x2 r j - rowMax (rowDot x0 x2 r) := by
  rw [val_main_call0_v5_apply, logitsH, val_main_call0_v4_apply, val_main_call0_v3_apply,
    show idx_main_call0_v3 (idx_main_call0_v4 (ix2 r j)) = ix1 r from eq_ix1 _, rowmaxH]
  rfl

theorem sumexpH : val_main_call0_v7 x0 x2 (ix1 r)
    = ∑ j : Fin 1002, Ideal.exp (rowDot x0 x2 r j - rowMax (rowDot x0 x2 r)) := by
  rw [val_main_call0_v7_apply]
  refine (congrArg₂ (· + ·) Ideal.ofBits_zero_f32 (Finset.sum_congr rfl fun k _ => ?_)).trans (zero_add _)
  rw [show idx_main_call0_v7 (ix1 r) k = ix2 r k from eq_ix2 _, val_main_call0_v6_apply, centeredH]
  rfl

theorem lsmH (j : Fin 1002) : val_main_v2 x0 x2 (ix2 r j) = lsmE (rowDot x0 x2 r) j := by
  rw [val_main_v2_apply, centeredH, val_main_call0_v10_apply, val_main_call0_v9_apply, val_main_call0_v8_apply,
    show idx_main_call0_v8 (idx_main_call0_v10 (ix2 r j)) = ix1 r from eq_ix1 _, sumexpH, Ideal.subf_def, Ideal.hostUnary_log_def]
  rfl

theorem clipH : val_main_v3 x1 (ix1 r) = clipW 999#32 (x1 (ix1 r)) := rfl

theorem startH : val_main_call2_v5 x1 (ix3 r 0 0) = clipW 999#32 (x1 (ix1 r)) := by
  rw [val_main_call2_v5_apply, show idx_main_call2_v5 (ix3 r 0 0) = ix2 r 0 from
      idx_row _ r (by show ((r.val * 1 + 0) * 1 + 0) / 1 = r.val; omega),
    val_main_call2_v4_apply, val_main_call2_v1_apply, val_main_call2_v0_apply, val_main_call2_c_apply, val_main_v4_apply,
    show idx_main_v4 (ix2 r 0) = ix1 r from eq_ix1 _, clipH, clipW_slt_zero 999#32 _ (by decide)]
  exact select_zero _ _

theorem maskH : val_main_call2_v12 x1 (ix2 r 0) = 1#1 := by
  unfold val_main_call2_v12
  refine reduce_andi_unit _ _ reducesTo_S4096x1x1_S4096x1_d2 (by decide) h_S_ r ?_ rfl
  rw [val_main_call2_v11_apply, val_main_call2_v7_apply, val_main_call2_v10_apply, startH]
  exact clipW_in_range 999#32 _ (by decide) 1001#32 (by decide) (by decide)

theorem takeH : val_main_v5 x0 x1 x2 (ix2 r 0)
    = val_main_v2 x0 x2 (ix2 r (tcH (x1 (ix1 r)))) := by
  rw [val_main_v5_apply, maskH, select_one]
  exact take_clipped (N := 1002) (by decide) gather_S4096x1002_S4096x1x1_S4096x1_n_1_0_0_1_2_11_wf _ _ r 999#32 _ (by decide) (by decide) (startH x1 r)

end Cert.ReferenceIdeal.RefOut

end
-- ==== Proof.RefOut.Tail0.lean ====
import proofs.«416445_j13245679141252_2_alg».proof.Proof.RefReadP
import proofs.«416445_j13245679141252_2_alg».proof.Proof.RefOut.Base

noncomputable section

namespace Cert.ReferenceIdeal.RefOut

open Gen ValueP ReadP Spec Idealize.ShloMosaic Idealize.ShloMosaic.ValueIdx

variable (x0 : (⟨S4096x2048, .f32⟩ : BufTy).Contents (Elt Ideal)) (x1 : (⟨S4096, .i32⟩ : BufTy).Contents (Elt Ideal))
  (x3 : (⟨S512x2048, .f32⟩ : BufTy).Contents (Elt Ideal)) (x4 : (⟨S9000x512, .f32⟩ : BufTy).Contents (Elt Ideal)) (r : Fin 4096)

theorem proj0 (k : Fin 512) : val_main_v8 x0 x3 (ix2 r k) = rowDot x0 x3 r k := by
  rw [val_main_v8_apply]
  refine Finset.sum_congr rfl fun q _ => ?_
  rw [val_main_v7_apply, show lidx_main_v8 (ix2 r k) q = ix2 r q from eq_ix2 _,
    show idx_main_v7 (ridx_main_v8 (ix2 r k) q) = ix2 k q from eq_ix2 _]

theorem logits0 (j : Fin 9000) : val_main_v10 x0 x3 x4 (ix2 r j) = rowDot2 x0 x3 x4 r j := by
  rw [val_main_v10_apply]
  refine Finset.sum_congr rfl fun k _ => ?_
  rw [val_main_v9_apply, show lidx_main_v10 (ix2 r j) k = ix2 r k from eq_ix2 _,
    show idx_main_v9 (ridx_main_v10 (ix2 r j) k) = ix2 j k from eq_ix2 _, proj0]

theorem rowmax0 : val_main_call3_v2 x0 x3 x4 (ix1 r) = rowMax (rowDot2 x0 x3 x4 r) := by
  rw [val_main_call3_v2_apply]
  unfold val_main_call3_v0
  rw [reduce_row (N := 9000) _ _ _ _ (by decide), funext (logits0 x0 x3 x4 r)]
  exact max_fold_neg_inf _

theorem centered0 (j : Fin 9000) :
    val_main_call3_v5 x0 x3 x4 (ix2 r j) = rowDot2 x0 x3 x4 r j - rowMax (rowDot2 x0 x3 x4 r) := by
  rw [val_main_call3_v5_apply, logits0, val_main_call3_v4_apply, val_main_call3_v3_apply,
    show idx_main_call3_v3 (idx_main_call3_v4 (ix2 r j)) = ix1 r from eq_ix1 _, rowmax0]
  rfl

theorem sumexp0 : val_main_call3_v7 x0 x3 x4 (ix1 r)
    = ∑ j : Fin 9000, Ideal.exp (rowDot2 x0 x3 x4 r j - rowMax (rowDot2 x0 x3 x4 r)) := by
  rw [val_main_call3_v7_apply]
  refine (congrArg₂ (· + ·) Ideal.ofBits_zero_f32 (Finset.sum_congr rfl fun k _ => ?_)).trans (zero_add _)
  rw [show idx_main_call3_v7 (ix1 r) k = ix2 r k from eq_ix2 _, val_main_call3_v6_apply, centered0]
  rfl

theorem lsm0 (j : Fin 9000) : val_main_v11 x0 x3 x4 (ix2 r j) = lsmE (rowDot2 x0 x3 x4 r) j := by
  rw [val_main_v11_apply, centered0, val_main_call3_v10_apply, val_main_call3_v9_apply, val_main_call3_v8_apply,
    show idx_main_call3_v8 (idx_main_call3_v10 (ix2 r j)) = ix1 r from eq_ix1 _, sumexp0, Ideal.subf_def, Ideal.hostUnary_log_def]
  rfl

theorem clip0 : val_main_v14 x1 (ix1 r) = clipW 8999#32 (x1 (ix1 r) - 1000#32) := rfl

theorem start0 : val_main_call5_v5 x1 (ix3 r 0 0) = clipW 8999#32 (x1 (ix1 r) - 1000#32) := by
  rw [val_main_call5_v5_apply, show idx_main_call5_v5 (ix3 r 0 0) = ix2 r 0 from
      idx_row _ r (by show ((r.val * 1 + 0) * 1 + 0) / 1 = r.val; omega),
    val_main_call5_v4_apply, val_main_call5_v1_apply, val_main_call5_v0_apply, val_main_call5_c_apply, val_main_v15_apply,
    show idx_main_v15 (ix2 r 0) = ix1 r from eq_ix1 _, clip0, clipW_slt_zero 8999#32 _ (by decide)]
  exact select_zero _ _

theorem mask0 : val_main_call5_v12 x1 (ix2 r 0) = 1#1 := by
  unfold val_main_call5_v12
  refine reduce_andi_unit _ _ reducesTo_S4096x1x1_S4096x1_d2 (by decide) h_S_ r ?_ rfl
  rw [val_main_call5_v11_apply, val_main_call5_v7_apply, val_main_call5_v10_apply, start0]
  exact clipW_in_range 8999#32 _ (by decide) 8999#32 (by decide) (by decide)

theorem take0 : val_main_v16 x0 x1 x3 x4 (ix2 r 0)
    = val_main_v11 x0 x3 x4 (ix2 r (tc0 (x1 (ix1 r)))) := by
  rw [val_main_v16_apply, mask0, select_one]
  exact take_clipped (N := 9000) (by decide) gather_S4096x9000_S4096x1x1_S4096x1_n_1_0_0_1_2_11_wf _ _ r 8999#32 _ (by decide) (by decide) (start0 x1 r)

end Cert.ReferenceIdeal.RefOut

end
-- ==== Proof.RefOut.Tail1.lean ====
import proofs.«416445_j13245679141252_2_alg».proof.Proof.RefReadP
import proofs.«416445_j13245679141252_2_alg».proof.Proof.RefOut.Base

noncomputable section

namespace Cert.ReferenceIdeal.RefOut

open Gen ValueP ReadP Spec Idealize.ShloMosaic Idealize.ShloMosaic.ValueIdx

variable (x0 : (⟨S4096x2048, .f32⟩ : BufTy).Contents (Elt Ideal)) (x1 : (⟨S4096, .i32⟩ : BufTy).Contents (Elt Ideal))
  (x5 : (⟨S128x2048, .f32⟩ : BufTy).Contents (Elt Ideal)) (x6 : (⟨S40257x128, .f32⟩ : BufTy).Contents (Elt Ideal)) (r : Fin 4096)

theorem proj1 (k : Fin 128) : val_main_v22 x0 x5 (ix2 r k) = rowDot x0 x5 r k := by
  rw [val_main_v22_apply]
  refine Finset.sum_congr rfl fun q _ => ?_
  rw [val_main_v21_apply, show lidx_main_v22 (ix2 r k) q = ix2 r q from eq_ix2 _,
    show idx_main_v21 (ridx_main_v22 (ix2 r k) q) = ix2 k q from eq_ix2 _]

theorem logits1 (j : Fin 40257) : val_main_v24 x0 x5 x6 (ix2 r j) = rowDot2 x0 x5 x6 r j := by
  rw [val_main_v24_apply]
  refine Finset.sum_congr rfl fun k _ => ?_
  rw [val_main_v23_apply, show lidx_main_v24 (ix2 r j) k = ix2 r k from eq_ix2 _,
    show idx_main_v23 (ridx_main_v24 (ix2 r j) k) = ix2 j k from eq_ix2 _, proj1]

theorem rowmax1 : val_main_call6_v2 x0 x5 x6 (ix1 r) = rowMax (rowDot2 x0 x5 x6 r) := by
  rw [val_main_call6_v2_apply]
  unfold val_main_call6_v0
  rw [reduce_row (N := 40257) _ _ _ _ (by decide), funext (logits1 x0 x5 x6 r)]
  exact max_fold_neg_inf _

theorem centered1 (j : Fin 40257) :
    val_main_call6_v5 x0 x5 x6 (ix2 r j) = rowDot2 x0 x5 x6 r j - rowMax (rowDot2 x0 x5 x6 r) := by
  rw [val_main_call6_v5_apply, logits1, val_main_call6_v4_apply, val_main_call6_v3_apply,
    show idx_main_call6_v3 (idx_main_call6_v4 (ix2 r j)) = ix1 r from eq_ix1 _, rowmax1]
  rfl

theorem sumexp1 : val_main_call6_v7 x0 x5 x6 (ix1 r)
    = ∑ j : Fin 40257, Ideal.exp (rowDot2 x0 x5 x6 r j - rowMax (rowDot2 x0 x5 x6 r)) := by
  rw [val_main_call6_v7_apply]
  refine (congrArg₂ (· + ·) Ideal.ofBits_zero_f32 (Finset.sum_congr rfl fun k _ => ?_)).trans (zero_add _)
  rw [show idx_main_call6_v7 (ix1 r) k = ix2 r k from eq_ix2 _, val_main_call6_v6_apply, centered1]
  rfl

theorem lsm1 (j : Fin 40257) : val_main_v25 x0 x5 x6 (ix2 r j) = lsmE (rowDot2 x0 x5 x6 r) j := by
  rw [val_main_v25_apply, centered1, val_main_call6_v10_apply, val_main_call6_v9_apply, val_main_call6_v8_apply,
    show idx_main_call6_v8 (idx_main_call6_v10 (ix2 r j)) = ix1 r from eq_ix1 _, sumexp1, Ideal.subf_def, Ideal.hostUnary_log_def]
  rfl

theorem clip1 : val_main_v28 x1 (ix1 r) = clipW 40256#32 (x1 (ix1 r) - 10000#32) := rfl

theorem start1 : val_main_call8_v5 x1 (ix3 r 0 0) = clipW 40256#32 (x1 (ix1 r) - 10000#32) := by
  rw [val_main_call8_v5_apply, show idx_main_call8_v5 (ix3 r 0 0) = ix2 r 0 from
      idx_row _ r (by show ((r.val * 1 + 0) * 1 + 0) / 1 = r.val; omega),
    val_main_call8_v4_apply, val_main_call8_v1_apply, val_main_call8_v0_apply, val_main_call8_c_apply, val_main_v29_apply,
    show idx_main_v29 (ix2 r 0) = ix1 r from eq_ix1 _, clip1, clipW_slt_zero 40256#32 _ (by decide)]
  exact select_zero _ _

theorem mask1 : val_main_call8_v12 x1 (ix2 r 0) = 1#1 := by
  unfold val_main_call8_v12
  refine reduce_andi_unit _ _ reducesTo_S4096x1x1_S4096x1_d2 (by decide) h_S_ r ?_ rfl
  rw [val_main_call8_v11_apply, val_main_call8_v7_apply, val_main_call8_v10_apply, start1]
  exact clipW_in_range 40256#32 _ (by decide) 40256#32 (by decide) (by decide)

theorem take1 : val_main_v30 x0 x1 x5 x6 (ix2 r 0)
    = val_main_v25 x0 x5 x6 (ix2 r (tc1 (x1 (ix1 r)))) := by
  rw [val_main_v30_apply, mask1, select_one]
  exact take_clipped (N := 40257) (by decide) gather_S4096x40257_S4096x1x1_S4096x1_n_1_0_0_1_2_11_wf _ _ r 40256#32 _ (by decide) (by decide) (start1 x1 r)

end Cert.ReferenceIdeal.RefOut

end
-- ==== Proof.RefOut.lean ====
import proofs.«416445_j13245679141252_2_alg».proof.Proof.RefOut.Head
import proofs.«416445_j13245679141252_2_alg».proof.Proof.RefOut.Tail0
import proofs.«416445_j13245679141252_2_alg».proof.Proof.RefOut.Tail1

noncomputable section

namespace Cert.ReferenceIdeal.RefOut

open Gen ValueP ReadP Spec Idealize.ShloMosaic Idealize.ShloMosaic.ValueIdx

section
variable (x0 : (⟨S4096x2048, .f32⟩ : BufTy).Contents (Elt Ideal)) (x1 : (⟨S4096, .i32⟩ : BufTy).Contents (Elt Ideal))
  (x2 : (⟨S1002x2048, .f32⟩ : BufTy).Contents (Elt Ideal)) (x3 : (⟨S512x2048, .f32⟩ : BufTy).Contents (Elt Ideal))
  (x4 : (⟨S9000x512, .f32⟩ : BufTy).Contents (Elt Ideal)) (x5 : (⟨S128x2048, .f32⟩ : BufTy).Contents (Elt Ideal))
  (x6 : (⟨S40257x128, .f32⟩ : BufTy).Contents (Elt Ideal)) (r : Fin 4096)

theorem branchH : val_main_v6 x0 x1 x2 (ix1 r) = lsmE (rowDot x0 x2 r) (tcH (x1 (ix1 r))) := by
  rw [val_main_v6_apply, show idx_main_v6 (ix1 r) = ix2 r 0 from idx_row _ r (Nat.div_one _), takeH, lsmH]

-- A tail branch's row: the head's log-probability of the cluster column plus the tail's at the clipped shifted target.
theorem branch0 : val_main_v20 x0 x1 x2 x3 x4 (ix1 r)
    = lsmE (rowDot x0 x2 r) ⟨1000, by omega⟩ + lsmE (rowDot2 x0 x3 x4 r) (tc0 (x1 (ix1 r))) := by
  rw [val_main_v20_apply, val_main_v19_apply, show idx_main_v19 (ix1 r) = ix2 r 0 from idx_row _ r (Nat.div_one _),
    val_main_v18_apply, show idx_main_v18 (ix2 r 0) = ix2 r (⟨1000, by omega⟩ : Fin 1002) from eq_ix2 _, lsmH,
    val_main_v17_apply, show idx_main_v17 (ix1 r) = ix2 r 0 from idx_row _ r (Nat.div_one _), take0, lsm0]
  rfl

theorem branch1 : val_main_v34 x0 x1 x2 x5 x6 (ix1 r)
    = lsmE (rowDot x0 x2 r) ⟨1001, by omega⟩ + lsmE (rowDot2 x0 x5 x6 r) (tc1 (x1 (ix1 r))) := by
  rw [val_main_v34_apply, val_main_v33_apply, show idx_main_v33 (ix1 r) = ix2 r 0 from idx_row _ r (Nat.div_one _),
    val_main_v32_apply, show idx_main_v32 (ix2 r 0) = ix2 r (⟨1001, by omega⟩ : Fin 1002) from eq_ix2 _, lsmH,
    val_main_v31_apply, show idx_main_v31 (ix1 r) = ix2 r 0 from idx_row _ r (Nat.div_one _), take1, lsm1]
  rfl

theorem out0_val : val_main_v40 x0 x1 x2 x3 x4 x5 x6 (ix1 r) = outRow x0 x2 x3 x4 x5 x6 (x1 (ix1 r)) r := by
  rw [val_main_v40_apply, val_main_v36_apply, val_main_v35_apply, val_main_c_7_apply, val_main_v39_apply,
    val_main_v38_apply, val_main_v37_apply, val_main_c_8_apply, branchH, branch0, branch1,
    select_cmpi_slt, select_cmpi_slt]
  rfl

end

theorem out0_apply (m : (ℓ : Loc nD τ sig) → Buf (Elt Ideal) ℓ) (c : Dev nD) (r : Fin 4096) :
    res_out0 (F := Ideal) m c (ix1 r)
      = outRow (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg1) (ix1 r)) r := by
  show res_main_v40 (F := Ideal) m c (ix1 r) = _
  rw [val_main_v40_eq]
  exact out0_val _ _ _ _ _ _ _ r

theorem out1_eq (m : (ℓ : Loc nD τ sig) → Buf (Elt Ideal) ℓ) (c : Dev nD) :
    res_out1 (F := Ideal) m c
      = Host.negf (F := Ideal) (Host.divf (F := Ideal) (Host.reduceAdd (F := Ideal) (res_out0 (F := Ideal) m c)
          (constant (F := Ideal) S_ .f32 0x00000000#32) reducesTo_S4096_S_d0 h_S_) (constant (F := Ideal) S_ .f32 0x45800000#32)) := by
  rw [show res_out0 (F := Ideal) m c = _ from val_main_v40_eq m c]
  exact val_main_v43_eq m c

end Cert.ReferenceIdeal.RefOut

end
-- ==== Proof.lean ====
import proofs.«416445_j13245679141252_2_alg».proof.Defs
import proofs.«416445_j13245679141252_2_alg».proof.Proof.Gen.Kernel
import proofs.«416445_j13245679141252_2_alg».proof.Proof.Gen.KernelIdeal
import proofs.«416445_j13245679141252_2_alg».proof.Proof.Gen.ReferenceIdeal
import proofs.«416445_j13245679141252_2_alg».proof.Proof.Gen.Pre_finite_inputs
import proofs.«416445_j13245679141252_2_alg».proof.Proof.K.Run
import proofs.«416445_j13245679141252_2_alg».proof.Proof.KI.Bridge
import proofs.«416445_j13245679141252_2_alg».proof.Proof.RefRunP
import proofs.«416445_j13245679141252_2_alg».proof.Proof.RefOut
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Reg.Run.frame (F := Bits) m ρ

open Cert.KernelIdeal Cert.KernelIdeal.Gen in
theorem frame_ki : Cert.frame_KernelIdeal := fun m ρ _ =>
  (θ_run Cert.KernelIdeal.defs _ _).mono (fun r h c => Reg.args_end m c (h c)) (Reg.run_all m ρ)

theorem frame_ri : Cert.frame_ReferenceIdeal := fun m ρ _ =>
  (θ_run Cert.ReferenceIdeal.defs _ _).mono (fun _ h c => (h c).2.2) (Cert.ReferenceIdeal.ValueP.run (F := Ideal) m ρ)

/-- Each of the four sites names the same literal, and the table gives it the value `⊥`. -/
theorem preserves : Cert.preserves_Kernel_KernelIdeal :=
  have p := IdealRules.named_const.statement Cert.KernelIdeal.κ "neg_big" .f32 0xF149F2CA#32 ⊥ rfl
  ⟨p, p, p, p⟩

open Cert.KernelIdeal Cert.KernelIdeal.Gen in
theorem algebraic : Cert.algebraic_KernelIdeal_ReferenceIdeal := by
  intro m ρ m' ρ' hpre hagree
  have hout : ∀ c : Dev Cert.ReferenceIdeal.nD, Cert.ReferenceIdeal.ValueP.res_out0 (F := Ideal) m' c = Reg.W9 m c (Proc.devRef .tc main_v15) := by
    intro c
    have key : ∀ r : Fin 4096, Cert.ReferenceIdeal.ValueP.res_out0 (F := Ideal) m' c (ix1 r) = Reg.W9 m c (Proc.devRef .tc main_v15) (ix1 r) := by
      intro r
      rw [Cert.ReferenceIdeal.RefOut.out0_apply m' c r, (hagree c).1, (hagree c).2.1, (hagree c).2.2.1, (hagree c).2.2.2.1,
        (hagree c).2.2.2.2.1, (hagree c).2.2.2.2.2.1, (hagree c).2.2.2.2.2.2]
      exact (Val.out_row m hpre c r).symm
    refine funext fun (i : (⟨1, ![4096]⟩ : Shape).Idx) => ?_
    rw [eq_ix1 i]
    exact key (i 0)
  refine ⟨fun c => Reg.W9 m c (Proc.devRef .tc main_v15), fun c => Reg.W9 m c (Proc.devRef .tc main_v18), ?_, ?_⟩
  · exact (θ_run Cert.KernelIdeal.defs _ _).mono (fun r h c =>
      ⟨h c _ (Reg.mem_uc main_v15 (by decide)), h c _ (Reg.mem_uc main_v18 (by decide)), Reg.args_end m c (h c)⟩) (Reg.run_all m ρ)
  · refine (θ_run Cert.ReferenceIdeal.defs _ _).mono (fun r h c => ⟨(h c).1.trans (hout c), (h c).2.1.trans ?_, (h c).2.2⟩)
      (Cert.ReferenceIdeal.ValueP.run (F := Ideal) m' ρ')
    show Cert.ReferenceIdeal.ValueP.res_out1 (F := Ideal) m' c = _
    show _ = Reg.W9 m c (Proc.devRef .tc main_v18)
    rw [Cert.ReferenceIdeal.RefOut.out1_eq m' c, hout c, Val.W9_v18 m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
